-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v206_0)) (v1 : (c : Dev Cert.KernelIdeal.nD) → Buf (Elt Ideal) ((c.tc : Thread Cert.KernelIdeal.nD Cert.KernelIdeal.τ).loc Cert.KernelIdeal.main_v206_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206_0) = v0 c
          ∧ r.2.mem ((c.tc : Thread Cert.KernelIdeal.nD Cert.KernelIdeal.τ).loc Cert.KernelIdeal.main_v206_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S100x16 : Shape := ⟨2, ![100, 16]⟩
abbrev S100x16x8 : Shape := ⟨3, ![100, 16, 8]⟩
abbrev S100x8 : Shape := ⟨2, ![100, 8]⟩
abbrev S100x8x4 : Shape := ⟨3, ![100, 8, 4]⟩
abbrev S100x4 : Shape := ⟨2, ![100, 4]⟩
abbrev S100x4x8 : Shape := ⟨3, ![100, 4, 8]⟩
abbrev S100x8x16 : Shape := ⟨3, ![100, 8, 16]⟩
abbrev S100x16x32 : Shape := ⟨3, ![100, 16, 32]⟩
abbrev S100x32 : Shape := ⟨2, ![100, 32]⟩
abbrev S100x32x64 : Shape := ⟨3, ![100, 32, 64]⟩
abbrev S100x64 : Shape := ⟨2, ![100, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S100x16x8 : S_.BroadcastsInDim S100x16x8 (![] : Fin 0 → Fin S100x16x8.rank)
  reducesTo_S100x16x8_S_d0_1_2 : S100x16x8.ReducesTo [0, 1, 2] S_
  bcast_S_S100x8 : S_.BroadcastsInDim S100x8 (![] : Fin 0 → Fin S100x8.rank)
  reducesTo_S100x8_S_d0_1 : S100x8.ReducesTo [0, 1] S_
  bcast_S_S100x8x4 : S_.BroadcastsInDim S100x8x4 (![] : Fin 0 → Fin S100x8x4.rank)
  reducesTo_S100x8x4_S_d0_1_2 : S100x8x4.ReducesTo [0, 1, 2] S_
  bcast_S_S100x4 : S_.BroadcastsInDim S100x4 (![] : Fin 0 → Fin S100x4.rank)
  reducesTo_S100x4_S_d0_1 : S100x4.ReducesTo [0, 1] S_
  bcast_S_S100x4x8 : S_.BroadcastsInDim S100x4x8 (![] : Fin 0 → Fin S100x4x8.rank)
  reducesTo_S100x4x8_S_d0_1_2 : S100x4x8.ReducesTo [0, 1, 2] S_
  bcast_S_S100x8x16 : S_.BroadcastsInDim S100x8x16 (![] : Fin 0 → Fin S100x8x16.rank)
  reducesTo_S100x8x16_S_d0_1_2 : S100x8x16.ReducesTo [0, 1, 2] S_
  bcast_S_S100x16 : S_.BroadcastsInDim S100x16 (![] : Fin 0 → Fin S100x16.rank)
  reducesTo_S100x16_S_d0_1 : S100x16.ReducesTo [0, 1] S_
  bcast_S_S100x16x32 : S_.BroadcastsInDim S100x16x32 (![] : Fin 0 → Fin S100x16x32.rank)
  reducesTo_S100x16x32_S_d0_1_2 : S100x16x32.ReducesTo [0, 1, 2] S_
  bcast_S_S100x32 : S_.BroadcastsInDim S100x32 (![] : Fin 0 → Fin S100x32.rank)
  reducesTo_S100x32_S_d0_1 : S100x32.ReducesTo [0, 1] S_
  bcast_S_S100x32x64 : S_.BroadcastsInDim S100x32x64 (![] : Fin 0 → Fin S100x32x64.rank)
  reducesTo_S100x32x64_S_d0_1_2 : S100x32x64.ReducesTo [0, 1, 2] S_
  bcast_S_S100x64 : S_.BroadcastsInDim S100x64 (![] : Fin 0 → Fin S100x64.rank)
  reducesTo_S100x64_S_d0_1 : S100x64.ReducesTo [0, 1] S_

variable [Facts]

def fn_part5 {F : FTy → Type} [FloatOps F] (main_arg1 : IVec S100x16 32) (main_arg19 : FVec F S100x64 .f32) (main_v83 : IVec S_ 1) (main_v84 : FVec F S100x32x64 .f32) (main_cst_32 : FVec F S_ .f32) : IVec S_ 1 :=
  let main_v85 : FVec F S100x32x64 .f32 := broadcastInDim S100x32x64 ![] bcast_S_S100x32x64 main_cst_32
  let main_v86 : IVec S100x32x64 1 := cmpf .olt main_v84 main_v85
  let main_c_33 : IVec S_ 1 := constantI S_ 1 1#1
  let main_v87 : IVec S_ 1 := (fun x v => Host.reduce IntOp.andi x v reducesTo_S100x32x64_S_d0_1_2 h_S_) main_v86 main_c_33
  let main_v88 : IVec S_ 1 := andi main_v83 main_v87
  let main_v89 : FVec F S100x64 .f32 := Host.absf main_arg19
  let main_cst_34 : FVec F S_ .f32 := constant S_ .f32 0x7F800000#32
  let main_v90 : FVec F S100x64 .f32 := broadcastInDim S100x64 ![] bcast_S_S100x64 main_cst_34
  let main_v91 : IVec S100x64 1 := cmpf .olt main_v89 main_v90
  let main_c_35 : IVec S_ 1 := constantI S_ 1 1#1
  let main_v92 : IVec S_ 1 := (fun x v => Host.reduce IntOp.andi x v reducesTo_S100x64_S_d0_1 h_S_) main_v91 main_c_35
  let main_v93 : IVec S_ 1 := andi main_v88 main_v92
  let main_c_36 : IVec S_ 32 := constantI S_ 32 0#32
  let main_v94 : IVec S100x16 32 := broadcastInDim S100x16 ![] bcast_S_S100x16 main_c_36
  let main_v95 : IVec S100x16 1 := cmpi .sge main_arg1 main_v94
  let main_c_37 : IVec S_ 32 := constantI S_ 32 64#32
  let main_v96 : IVec S100x16 32 := broadcastInDim S100x16 ![] bcast_S_S100x16 main_c_37
  let main_v97 : IVec S100x16 1 := cmpi .slt main_arg1 main_v96
  let main_v98 : IVec S100x16 1 := andi main_v95 main_v97
  let main_c_38 : IVec S_ 1 := constantI S_ 1 1#1
  let main_v99 : IVec S_ 1 := (fun x v => Host.reduce IntOp.andi x v reducesTo_S100x16_S_d0_1 h_S_) main_v98 main_c_38
  let main_v100 : IVec S_ 1 := andi main_v93 main_v99
  main_v100

def fn_part4 {F : FTy → Type} [FloatOps F] (main_arg1 : IVec S100x16 32) (main_arg15 : FVec F S100x16 .f32) (main_arg16 : FVec F S100x16x32 .f32) (main_arg17 : FVec F S100x32 .f32) (main_arg18 : FVec F S100x32x64 .f32) (main_arg19 : FVec F S100x64 .f32) (main_v63 : IVec S_ 1) (main_v67 : IVec S_ 1) : IVec S_ 1 :=
  let main_v68 : IVec S_ 1 := andi main_v63 main_v67
  let main_v69 : FVec F S100x16 .f32 := Host.absf main_arg15
  let main_cst_26 : FVec F S_ .f32 := constant S_ .f32 0x7F800000#32
  let main_v70 : FVec F S100x16 .f32 := broadcastInDim S100x16 ![] bcast_S_S100x16 main_cst_26
  let main_v71 : IVec S100x16 1 := cmpf .olt main_v69 main_v70
  let main_c_27 : IVec S_ 1 := constantI S_ 1 1#1
  let main_v72 : IVec S_ 1 := (fun x v => Host.reduce IntOp.andi x v reducesTo_S100x16_S_d0_1 h_S_) main_v71 main_c_27
  let main_v73 : IVec S_ 1 := andi main_v68 main_v72
  let main_v74 : FVec F S100x16x32 .f32 := Host.absf main_arg16
  let main_cst_28 : FVec F S_ .f32 := constant S_ .f32 0x7F800000#32
  let main_v75 : FVec F S100x16x32 .f32 := broadcastInDim S100x16x32 ![] bcast_S_S100x16x32 main_cst_28
  let main_v76 : IVec S100x16x32 1 := cmpf .olt main_v74 main_v75
  let main_c_29 : IVec S_ 1 := constantI S_ 1 1#1
  let main_v77 : IVec S_ 1 := (fun x v => Host.reduce IntOp.andi x v reducesTo_S100x16x32_S_d0_1_2 h_S_) main_v76 main_c_29
  let main_v78 : IVec S_ 1 := andi main_v73 main_v77
  let main_v79 : FVec F S100x32 .f32 := Host.absf main_arg17
  let main_cst_30 : FVec F S_ .f32 := constant S_ .f32 0x7F800000#32
  let main_v80 : FVec F S100x32 .f32 := broadcastInDim S100x32 ![] bcast_S_S100x32 main_cst_30
  let main_v81 : IVec S100x32 1 := cmpf .olt main_v79 main_v80
  let main_c_31 : IVec S_ 1 := constantI S_ 1 1#1
  let main_v82 : IVec S_ 1 := (fun x v => Host.reduce IntOp.andi x v reducesTo_S100x32_S_d0_1 h_S_) main_v81 main_c_31
  let main_v83 : IVec S_ 1 := andi main_v78 main_v82
  let main_v84 : FVec F S100x32x64 .f32 := Host.absf main_arg18
  let main_cst_32 : FVec F S_ .f32 := constant S_ .f32 0x7F800000#32
  fn_part5 (F := F) main_arg1 main_arg19 main_v83 main_v84 main_cst_32

def fn_part3 {F : FTy → Type} [FloatOps F] (main_arg1 : IVec S100x16 32) (main_arg12 : FVec F S100x32x64 .f32) (main_arg13 : FVec F S100x64 .f32) (main_arg14 : FVec F S100x8x16 .f32) (main_arg15 : FVec F S100x16 .f32) (main_arg16 : FVec F S100x16x32 .f32) (main_arg17 : FVec F S100x32 .f32) (main_arg18 : FVec F S100x32x64 .f32) (main_arg19 : FVec F S100x64 .f32) (main_v48 : IVec S_ 1) (main_v49 : FVec F S100x32 .f32) (main_v50 : FVec F S100x32 .f32) : IVec S_ 1 :=
  let main_v51 : IVec S100x32 1 := cmpf .olt main_v49 main_v50
  let main_c_19 : IVec S_ 1 := constantI S_ 1 1#1
  let main_v52 : IVec S_ 1 := (fun x v => Host.reduce IntOp.andi x v reducesTo_S100x32_S_d0_1 h_S_) main_v51 main_c_19
  let main_v53 : IVec S_ 1 := andi main_v48 main_v52
  let main_v54 : FVec F S100x32x64 .f32 := Host.absf main_arg12
  let main_cst_20 : FVec F S_ .f32 := constant S_ .f32 0x7F800000#32
  let main_v55 : FVec F S100x32x64 .f32 := broadcastInDim S100x32x64 ![] bcast_S_S100x32x64 main_cst_20
  let main_v56 : IVec S100x32x64 1 := cmpf .olt main_v54 main_v55
  let main_c_21 : IVec S_ 1 := constantI S_ 1 1#1
  let main_v57 : IVec S_ 1 := (fun x v => Host.reduce IntOp.andi x v reducesTo_S100x32x64_S_d0_1_2 h_S_) main_v56 main_c_21
  let main_v58 : IVec S_ 1 := andi main_v53 main_v57
  let main_v59 : FVec F S100x64 .f32 := Host.absf main_arg13
  let main_cst_22 : FVec F S_ .f32 := constant S_ .f32 0x7F800000#32
  let main_v60 : FVec F S100x64 .f32 := broadcastInDim S100x64 ![] bcast_S_S100x64 main_cst_22
  let main_v61 : IVec S100x64 1 := cmpf .olt main_v59 main_v60
  let main_c_23 : IVec S_ 1 := constantI S_ 1 1#1
  let main_v62 : IVec S_ 1 := (fun x v => Host.reduce IntOp.andi x v reducesTo_S100x64_S_d0_1 h_S_) main_v61 main_c_23
  let main_v63 : IVec S_ 1 := andi main_v58 main_v62
  let main_v64 : FVec F S100x8x16 .f32 := Host.absf main_arg14
  let main_cst_24 : FVec F S_ .f32 := constant S_ .f32 0x7F800000#32
  let main_v65 : FVec F S100x8x16 .f32 := broadcastInDim S100x8x16 ![] bcast_S_S100x8x16 main_cst_24
  let main_v66 : IVec S100x8x16 1 := cmpf .olt main_v64 main_v65
  let main_c_25 : IVec S_ 1 := constantI S_ 1 1#1
  let main_v67 : IVec S_ 1 := (fun x v => Host.reduce IntOp.andi x v reducesTo_S100x8x16_S_d0_1_2 h_S_) main_v66 main_c_25
  fn_part4 (F := F) main_arg1 main_arg15 main_arg16 main_arg17 main_arg18 main_arg19 main_v63 main_v67

def fn_part2 {F : FTy → Type} [FloatOps F] (main_arg1 : IVec S100x16 32) (main_arg8 : FVec F S100x8x16 .f32) (main_arg9 : FVec F S100x16 .f32) (main_arg10 : FVec F S100x16x32 .f32) (main_arg11 : FVec F S100x32 .f32) (main_arg12 : FVec F S100x32x64 .f32) (main_arg13 : FVec F S100x64 .f32) (main_arg14 : FVec F S100x8x16 .f32) (main_arg15 : FVec F S100x16 .f32) (main_arg16 : FVec F S100x16x32 .f32) (main_arg17 : FVec F S100x32 .f32) (main_arg18 : FVec F S100x32x64 .f32) (main_arg19 : FVec F S100x64 .f32) (main_v33 : IVec S_ 1) : IVec S_ 1 :=
  let main_v34 : FVec F S100x8x16 .f32 := Host.absf main_arg8
  let main_cst_12 : FVec F S_ .f32 := constant S_ .f32 0x7F800000#32
  let main_v35 : FVec F S100x8x16 .f32 := broadcastInDim S100x8x16 ![] bcast_S_S100x8x16 main_cst_12
  let main_v36 : IVec S100x8x16 1 := cmpf .olt main_v34 main_v35
  let main_c_13 : IVec S_ 1 := constantI S_ 1 1#1
  let main_v37 : IVec S_ 1 := (fun x v => Host.reduce IntOp.andi x v reducesTo_S100x8x16_S_d0_1_2 h_S_) main_v36 main_c_13
  let main_v38 : IVec S_ 1 := andi main_v33 main_v37
  let main_v39 : FVec F S100x16 .f32 := Host.absf main_arg9
  let main_cst_14 : FVec F S_ .f32 := constant S_ .f32 0x7F800000#32
  let main_v40 : FVec F S100x16 .f32 := broadcastInDim S100x16 ![] bcast_S_S100x16 main_cst_14
  let main_v41 : IVec S100x16 1 := cmpf .olt main_v39 main_v40
  let main_c_15 : IVec S_ 1 := constantI S_ 1 1#1
  let main_v42 : IVec S_ 1 := (fun x v => Host.reduce IntOp.andi x v reducesTo_S100x16_S_d0_1 h_S_) main_v41 main_c_15
  let main_v43 : IVec S_ 1 := andi main_v38 main_v42
  let main_v44 : FVec F S100x16x32 .f32 := Host.absf main_arg10
  let main_cst_16 : FVec F S_ .f32 := constant S_ .f32 0x7F800000#32
  let main_v45 : FVec F S100x16x32 .f32 := broadcastInDim S100x16x32 ![] bcast_S_S100x16x32 main_cst_16
  let main_v46 : IVec S100x16x32 1 := cmpf .olt main_v44 main_v45
  let main_c_17 : IVec S_ 1 := constantI S_ 1 1#1
  let main_v47 : IVec S_ 1 := (fun x v => Host.reduce IntOp.andi x v reducesTo_S100x16x32_S_d0_1_2 h_S_) main_v46 main_c_17
  let main_v48 : IVec S_ 1 := andi main_v43 main_v47
  let main_v49 : FVec F S100x32 .f32 := Host.absf main_arg11
  let main_cst_18 : FVec F S_ .f32 := constant S_ .f32 0x7F800000#32
  let main_v50 : FVec F S100x32 .f32 := broadcastInDim S100x32 ![] bcast_S_S100x32 main_cst_18
  fn_part3 (F := F) main_arg1 main_arg12 main_arg13 main_arg14 main_arg15 main_arg16 main_arg17 main_arg18 main_arg19 main_v48 main_v49 main_v50

def fn_part1 {F : FTy → Type} [FloatOps F] (main_arg1 : IVec S100x16 32) (main_arg5 : FVec F S100x4 .f32) (main_arg6 : FVec F S100x4x8 .f32) (main_arg7 : FVec F S100x8 .f32) (main_arg8 : FVec F S100x8x16 .f32) (main_arg9 : FVec F S100x16 .f32) (main_arg10 : FVec F S100x16x32 .f32) (main_arg11 : FVec F S100x32 .f32) (main_arg12 : FVec F S100x32x64 .f32) (main_arg13 : FVec F S100x64 .f32) (main_arg14 : FVec F S100x8x16 .f32) (main_arg15 : FVec F S100x16 .f32) (main_arg16 : FVec F S100x16x32 .f32) (main_arg17 : FVec F S100x32 .f32) (main_arg18 : FVec F S100x32x64 .f32) (main_arg19 : FVec F S100x64 .f32) (main_v13 : IVec S_ 1) (main_v16 : IVec S100x8x4 1) : IVec S_ 1 :=
  let main_c_5 : IVec S_ 1 := constantI S_ 1 1#1
  let main_v17 : IVec S_ 1 := (fun x v => Host.reduce IntOp.andi x v reducesTo_S100x8x4_S_d0_1_2 h_S_) main_v16 main_c_5
  let main_v18 : IVec S_ 1 := andi main_v13 main_v17
  let main_v19 : FVec F S100x4 .f32 := Host.absf main_arg5
  let main_cst_6 : FVec F S_ .f32 := constant S_ .f32 0x7F800000#32
  let main_v20 : FVec F S100x4 .f32 := broadcastInDim S100x4 ![] bcast_S_S100x4 main_cst_6
  let main_v21 : IVec S100x4 1 := cmpf .olt main_v19 main_v20
  let main_c_7 : IVec S_ 1 := constantI S_ 1 1#1
  let main_v22 : IVec S_ 1 := (fun x v => Host.reduce IntOp.andi x v reducesTo_S100x4_S_d0_1 h_S_) main_v21 main_c_7
  let main_v23 : IVec S_ 1 := andi main_v18 main_v22
  let main_v24 : FVec F S100x4x8 .f32 := Host.absf main_arg6
  let main_cst_8 : FVec F S_ .f32 := constant S_ .f32 0x7F800000#32
  let main_v25 : FVec F S100x4x8 .f32 := broadcastInDim S100x4x8 ![] bcast_S_S100x4x8 main_cst_8
  let main_v26 : IVec S100x4x8 1 := cmpf .olt main_v24 main_v25
  let main_c_9 : IVec S_ 1 := constantI S_ 1 1#1
  let main_v27 : IVec S_ 1 := (fun x v => Host.reduce IntOp.andi x v reducesTo_S100x4x8_S_d0_1_2 h_S_) main_v26 main_c_9
  let main_v28 : IVec S_ 1 := andi main_v23 main_v27
  let main_v29 : FVec F S100x8 .f32 := Host.absf main_arg7
  let main_cst_10 : FVec F S_ .f32 := constant S_ .f32 0x7F800000#32
  let main_v30 : FVec F S100x8 .f32 := broadcastInDim S100x8 ![] bcast_S_S100x8 main_cst_10
  let main_v31 : IVec S100x8 1 := cmpf .olt main_v29 main_v30
  let main_c_11 : IVec S_ 1 := constantI S_ 1 1#1
  let main_v32 : IVec S_ 1 := (fun x v => Host.reduce IntOp.andi x v reducesTo_S100x8_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_v33

def fn {F : FTy → Type} [FloatOps F] (main_arg0 : FVec F S8192x64 .f32) (main_arg1 : IVec S100x16 32) (main_arg2 : FVec F S100x16x8 .f32) (main_arg3 : FVec F S100x8 .f32) (main_arg4 : FVec F S100x8x4 .f32) (main_arg5 : FVec F S100x4 .f32) (main_arg6 : FVec F S100x4x8 .f32) (main_arg7 : FVec F S100x8 .f32) (main_arg8 : FVec F S100x8x16 .f32) (main_arg9 : FVec F S100x16 .f32) (main_arg10 : FVec F S100x16x32 .f32) (main_arg11 : FVec F S100x32 .f32) (main_arg12 : FVec F S100x32x64 .f32) (main_arg13 : FVec F S100x64 .f32) (main_arg14 : FVec F S100x8x16 .f32) (main_arg15 : FVec F S100x16 .f32) (main_arg16 : FVec F S100x16x32 .f32) (main_arg17 : FVec F S100x32 .f32) (main_arg18 : FVec F S100x32x64 .f32) (main_arg19 : FVec F S100x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S100x16x8 .f32 := Host.absf main_arg2
  let main_cst_0 : FVec F S_ .f32 := constant S_ .f32 0x7F800000#32
  let main_v5 : FVec F S100x16x8 .f32 := broadcastInDim S100x16x8 ![] bcast_S_S100x16x8 main_cst_0
  let main_v6 : IVec S100x16x8 1 := cmpf .olt main_v4 main_v5
  let main_c_1 : IVec S_ 1 := constantI S_ 1 1#1
  let main_v7 : IVec S_ 1 := (fun x v => Host.reduce IntOp.andi x v reducesTo_S100x16x8_S_d0_1_2 h_S_) main_v6 main_c_1
  let main_v8 : IVec S_ 1 := andi main_v3 main_v7
  let main_v9 : FVec F S100x8 .f32 := Host.absf main_arg3
  let main_cst_2 : FVec F S_ .f32 := constant S_ .f32 0x7F800000#32
  let main_v10 : FVec F S100x8 .f32 := broadcastInDim S100x8 ![] bcast_S_S100x8 main_cst_2
  let main_v11 : IVec S100x8 1 := cmpf .olt main_v9 main_v10
  let main_c_3 : IVec S_ 1 := constantI S_ 1 1#1
  let main_v12 : IVec S_ 1 := (fun x v => Host.reduce IntOp.andi x v reducesTo_S100x8_S_d0_1 h_S_) main_v11 main_c_3
  let main_v13 : IVec S_ 1 := andi main_v8 main_v12
  let main_v14 : FVec F S100x8x4 .f32 := Host.absf main_arg4
  let main_cst_4 : FVec F S_ .f32 := constant S_ .f32 0x7F800000#32
  let main_v15 : FVec F S100x8x4 .f32 := broadcastInDim S100x8x4 ![] bcast_S_S100x8x4 main_cst_4
  let main_v16 : IVec S100x8x4 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_v13 main_v16
-- ==== Kernel.lean ====
abbrev S8192x64 : Shape := ⟨2, ![8192, 64]⟩
abbrev S100x16 : Shape := ⟨2, ![100, 16]⟩
abbrev S100x16x8 : Shape := ⟨3, ![100, 16, 8]⟩
abbrev S100x8 : Shape := ⟨2, ![100, 8]⟩
abbrev S100x8x4 : Shape := ⟨3, ![100, 8, 4]⟩
abbrev S100x4 : Shape := ⟨2, ![100, 4]⟩
abbrev S100x4x8 : Shape := ⟨3, ![100, 4, 8]⟩
abbrev S100x8x16 : Shape := ⟨3, ![100, 8, 16]⟩
abbrev S100x16x32 : Shape := ⟨3, ![100, 16, 32]⟩
abbrev S100x32 : Shape := ⟨2, ![100, 32]⟩
abbrev S100x32x64 : Shape := ⟨3, ![100, 32, 64]⟩
abbrev S100x64 : Shape := ⟨2, ![100, 64]⟩
abbrev S100 : Shape := ⟨1, ![100]⟩
abbrev S100x1 : Shape := ⟨2, ![100, 1]⟩
abbrev S_ : Shape := ⟨0, ![]⟩
abbrev S100x64x8 : Shape := ⟨3, ![100, 64, 8]⟩
abbrev S100x16x1 : Shape := ⟨3, ![100, 16, 1]⟩
abbrev S100x16x2 : Shape := ⟨3, ![100, 16, 2]⟩
abbrev S100x8x32 : Shape := ⟨3, ![100, 8, 32]⟩
abbrev S100x16x64 : Shape := ⟨3, ![100, 16, 64]⟩
abbrev S100x32x128 : Shape := ⟨3, ![100, 32, 128]⟩
abbrev S100x64x128 : Shape := ⟨3, ![100, 64, 128]⟩
abbrev S100x128 : Shape := ⟨2, ![100, 128]⟩
abbrev S25x4x64x8 : Shape := ⟨4, ![25, 4, 64, 8]⟩
abbrev S25x1x64x8 : Shape := ⟨4, ![25, 1, 64, 8]⟩
abbrev S25x64x8 : Shape := ⟨3, ![25, 64, 8]⟩
abbrev S25x64x32 : Shape := ⟨3, ![25, 64, 32]⟩
abbrev S25x256x32 : Shape := ⟨3, ![25, 256, 32]⟩
abbrev S25x4x8x4 : Shape := ⟨4, ![25, 4, 8, 4]⟩
abbrev S25x1x8x4 : Shape := ⟨4, ![25, 1, 8, 4]⟩
abbrev S25x8x4 : Shape := ⟨3, ![25, 8, 4]⟩
abbrev S25x8x16 : Shape := ⟨3, ![25, 8, 16]⟩
abbrev S25x32x16 : Shape := ⟨3, ![25, 32, 16]⟩
abbrev S25x4x4x8 : Shape := ⟨4, ![25, 4, 4, 8]⟩
abbrev S25x1x4x8 : Shape := ⟨4, ![25, 1, 4, 8]⟩
abbrev S25x4x8 : Shape := ⟨3, ![25, 4, 8]⟩
abbrev S25x4x32 : Shape := ⟨3, ![25, 4, 32]⟩
abbrev S25x16x32 : Shape := ⟨3, ![25, 16, 32]⟩
abbrev S25x4x8x32 : Shape := ⟨4, ![25, 4, 8, 32]⟩
abbrev S25x1x8x32 : Shape := ⟨4, ![25, 1, 8, 32]⟩
abbrev S25x8x32 : Shape := ⟨3, ![25, 8, 32]⟩
abbrev S25x8x128 : Shape := ⟨3, ![25, 8, 128]⟩
abbrev S25x32x128 : Shape := ⟨3, ![25, 32, 128]⟩
abbrev S25x4x32x64 : Shape := ⟨4, ![25, 4, 32, 64]⟩
abbrev S25x1x32x64 : Shape := ⟨4, ![25, 1, 32, 64]⟩
abbrev S25x32x64 : Shape := ⟨3, ![25, 32, 64]⟩
abbrev S25x32x256 : Shape := ⟨3, ![25, 32, 256]⟩
abbrev S25x128x256 : Shape := ⟨3, ![25, 128, 256]⟩
abbrev S25x4x64x128 : Shape := ⟨4, ![25, 4, 64, 128]⟩
abbrev S25x1x64x128 : Shape := ⟨4, ![25, 1, 64, 128]⟩
abbrev S25x64x128 : Shape := ⟨3, ![25, 64, 128]⟩
abbrev S25x64x512 : Shape := ⟨3, ![25, 64, 512]⟩
abbrev S25x256x512 : Shape := ⟨3, ![25, 256, 512]⟩
abbrev S25x32 : Shape := ⟨2, ![25, 32]⟩
abbrev S25x1x32 : Shape := ⟨3, ![25, 1, 32]⟩
abbrev S25x16 : Shape := ⟨2, ![25, 16]⟩
abbrev S25x1x16 : Shape := ⟨3, ![25, 1, 16]⟩
abbrev S25x128 : Shape := ⟨2, ![25, 128]⟩
abbrev S25x1x128 : Shape := ⟨3, ![25, 1, 128]⟩
abbrev S25x256 : Shape := ⟨2, ![25, 256]⟩
abbrev S25x1x256 : Shape := ⟨3, ![25, 1, 256]⟩
abbrev S25x512 : Shape := ⟨2, ![25, 512]⟩
abbrev S25x1x512 : Shape := ⟨3, ![25, 1, 512]⟩
abbrev S100x8192x64 : Shape := ⟨3, ![100, 8192, 64]⟩
abbrev S2048x64 : Shape := ⟨2, ![2048, 64]⟩
abbrev S1x256x32 : Shape := ⟨3, ![1, 256, 32]⟩
abbrev S1x1x32 : Shape := ⟨3, ![1, 1, 32]⟩
abbrev S1x32x16 : Shape := ⟨3, ![1, 32, 16]⟩
abbrev S1x1x16 : Shape := ⟨3, ![1, 1, 16]⟩
abbrev S1x16x32 : Shape := ⟨3, ![1, 16, 32]⟩
abbrev S1x32x128 : Shape := ⟨3, ![1, 32, 128]⟩
abbrev S1x1x128 : Shape := ⟨3, ![1, 1, 128]⟩
abbrev S1x128x256 : Shape := ⟨3, ![1, 128, 256]⟩
abbrev S1x1x256 : Shape := ⟨3, ![1, 1, 256]⟩
abbrev S1x256x512 : Shape := ⟨3, ![1, 256, 512]⟩
abbrev S1x1x512 : Shape := ⟨3, ![1, 1, 512]⟩
abbrev S4x2048x64 : Shape := ⟨3, ![4, 2048, 64]⟩
abbrev S2048x256 : Shape := ⟨2, ![2048, 256]⟩
abbrev S256x32 : Shape := ⟨2, ![256, 32]⟩
abbrev S2048x32 : Shape := ⟨2, ![2048, 32]⟩
abbrev S1x32 : Shape := ⟨2, ![1, 32]⟩
abbrev S32x16 : Shape := ⟨2, ![32, 16]⟩
abbrev S2048x16 : Shape := ⟨2, ![2048, 16]⟩
abbrev S1x16 : Shape := ⟨2, ![1, 16]⟩
abbrev S16x32 : Shape := ⟨2, ![16, 32]⟩
abbrev S32x128 : Shape := ⟨2, ![32, 128]⟩
abbrev S2048x128 : Shape := ⟨2, ![2048, 128]⟩
abbrev S1x128 : Shape := ⟨2, ![1, 128]⟩
abbrev S128x256 : Shape := ⟨2, ![128, 256]⟩
abbrev S1x256 : Shape := ⟨2, ![1, 256]⟩
abbrev S256x512 : Shape := ⟨2, ![256, 512]⟩
abbrev S2048x512 : Shape := ⟨2, ![2048, 512]⟩
abbrev S1x512 : Shape := ⟨2, ![1, 512]⟩
abbrev S1x2048x64 : Shape := ⟨3, ![1, 2048, 64]⟩

abbrev nBuf : Space → Nat
  | .hbm => 309
  | .vmem => 30
  | .smem => 0
  | _ => 0

abbrev hbmTy0_0 (i : Nat) : BufTy := match i % 128 with
  | 0 => ⟨S8192x64, .f32⟩
  | 1 => ⟨S100x16, .i32⟩
  | 2 => ⟨S100x16x8, .f32⟩
  | 3 => ⟨S100x8, .f32⟩
  | 4 => ⟨S100x8x4, .f32⟩
  | 5 => ⟨S100x4, .f32⟩
  | 6 => ⟨S100x4x8, .f32⟩
  | 7 => ⟨S100x8, .f32⟩
  | 8 => ⟨S100x8x16, .f32⟩
  | 9 => ⟨S100x16, .f32⟩
  | 10 => ⟨S100x16x32, .f32⟩
  | 11 => ⟨S100x32, .f32⟩
  | 12 => ⟨S100x32x64, .f32⟩
  | 13 => ⟨S100x64, .f32⟩
  | 14 => ⟨S100x8x16, .f32⟩
  | 15 => ⟨S100x16, .f32⟩
  | 16 => ⟨S100x16x32, .f32⟩
  | 17 => ⟨S100x32, .f32⟩
  | 18 => ⟨S100x32x64, .f32⟩
  | 19 => ⟨S100x64, .f32⟩
  | 20 => ⟨S100, .i32⟩
  | 21 => ⟨S100x1, .i32⟩
  | 22 => ⟨S_, .f32⟩
  | 23 => ⟨S100x64x8, .f32⟩
  | 24 => ⟨S_, .i32⟩
  | 25 => ⟨S100x1, .i32⟩
  | 26 => ⟨S100x1, .i1⟩
  | 27 => ⟨S_, .i32⟩
  | 28 => ⟨S100x1, .i32⟩
  | 29 => ⟨S100x1, .i32⟩
  | 30 => ⟨S100x1, .i32⟩
  | 31 => ⟨S_, .i32⟩
  | 32 => ⟨S100x16, .i32⟩
  | 33 => ⟨S100x16, .i1⟩
  | 34 => ⟨S_, .i32⟩
  | 35 => ⟨S100x16, .i32⟩
  | 36 => ⟨S100x16, .i32⟩
  | 37 => ⟨S100x16, .i32⟩
  | 38 => ⟨S100x16, .i32⟩
  | 39 => ⟨S100x16x1, .i32⟩
  | 40 => ⟨S100x16x1, .i32⟩
  | 41 => ⟨S100x16x2, .i32⟩
  | 42 => ⟨S100x64x8, .f32⟩
  | 43 => ⟨S100x8x32, .f32⟩
  | 44 => ⟨S100x32, .f32⟩
  | 45 => ⟨S_, .f32⟩
  | 46 => ⟨S100x16x32, .f32⟩
  | 47 => ⟨S100x16x64, .f32⟩
  | 48 => ⟨S_, .f32⟩
  | 49 => ⟨S100x16x32, .f32⟩
  | 50 => ⟨S100x16x64, .f32⟩
  | 51 => ⟨S100x32x64, .f32⟩
  | 52 => ⟨S100x64, .f32⟩
  | 53 => ⟨S_, .f32⟩
  | 54 => ⟨S100x32x64, .f32⟩
  | 55 => ⟨S100x32x128, .f32⟩
  | 56 => ⟨S_, .f32⟩
  | 57 => ⟨S100x32x64, .f32⟩
  | 58 => ⟨S100x32x128, .f32⟩
  | 59 => ⟨S100x64x128, .f32⟩
  | 60 => ⟨S100x128, .f32⟩
  | 61 => ⟨S25x4x64x8, .f32⟩
  | 62 => ⟨S25x1x64x8, .f32⟩
  | 63 => ⟨S25x64x8, .f32⟩
  | 64 => ⟨S_, .f32⟩
  | 65 => ⟨S25x64x8, .f32⟩
  | 66 => ⟨S_, .f32⟩
  | 67 => ⟨S25x64x8, .f32⟩
  | 68 => ⟨S_, .f32⟩
  | 69 => ⟨S25x64x8, .f32⟩
  | 70 => ⟨S25x64x32, .f32⟩
  | 71 => ⟨S_, .f32⟩
  | 72 => ⟨S25x64x8, .f32⟩
  | 73 => ⟨S25x1x64x8, .f32⟩
  | 74 => ⟨S25x64x8, .f32⟩
  | 75 => ⟨S_, .f32⟩
  | 76 => ⟨S25x64x8, .f32⟩
  | 77 => ⟨S_, .f32⟩
  | 78 => ⟨S25x64x8, .f32⟩
  | 79 => ⟨S25x64x32, .f32⟩
  | 80 => ⟨S_, .f32⟩
  | 81 => ⟨S25x64x8, .f32⟩
  | 82 => ⟨S_, .f32⟩
  | 83 => ⟨S25x64x8, .f32⟩
  | 84 => ⟨S25x1x64x8, .f32⟩
  | 85 => ⟨S25x64x8, .f32⟩
  | 86 => ⟨S_, .f32⟩
  | 87 => ⟨S25x64x8, .f32⟩
  | 88 => ⟨S25x64x32, .f32⟩
  | 89 => ⟨S_, .f32⟩
  | 90 => ⟨S25x64x8, .f32⟩
  | 91 => ⟨S_, .f32⟩
  | 92 => ⟨S25x64x8, .f32⟩
  | 93 => ⟨S_, .f32⟩
  | 94 => ⟨S25x64x8, .f32⟩
  | 95 => ⟨S25x1x64x8, .f32⟩
  | 96 => ⟨S25x64x8, .f32⟩
  | 97 => ⟨S25x64x32, .f32⟩
  | 98 => ⟨S25x256x32, .f32⟩
  | 99 => ⟨S25x256x32, .bf16⟩
  | 100 => ⟨S25x4x8x4, .f32⟩
  | 101 => ⟨S25x1x8x4, .f32⟩
  | 102 => ⟨S25x8x4, .f32⟩
  | 103 => ⟨S_, .f32⟩
  | 104 => ⟨S25x8x4, .f32⟩
  | 105 => ⟨S_, .f32⟩
  | 106 => ⟨S25x8x4, .f32⟩
  | 107 => ⟨S_, .f32⟩
  | 108 => ⟨S25x8x4, .f32⟩
  | 109 => ⟨S25x8x16, .f32⟩
  | 110 => ⟨S_, .f32⟩
  | 111 => ⟨S25x8x4, .f32⟩
  | 112 => ⟨S25x1x8x4, .f32⟩
  | 113 => ⟨S25x8x4, .f32⟩
  | 114 => ⟨S_, .f32⟩
  | 115 => ⟨S25x8x4, .f32⟩
  | 116 => ⟨S_, .f32⟩
  | 117 => ⟨S25x8x4, .f32⟩
  | 118 => ⟨S25x8x16, .f32⟩
  | 119 => ⟨S_, .f32⟩
  | 120 => ⟨S25x8x4, .f32⟩
  | 121 => ⟨S_, .f32⟩
  | 122 => ⟨S25x8x4, .f32⟩
  | 123 => ⟨S25x1x8x4, .f32⟩
  | 124 => ⟨S25x8x4, .f32⟩
  | 125 => ⟨S_, .f32⟩
  | 126 => ⟨S25x8x4, .f32⟩
  | 127 => ⟨S25x8x16, .f32⟩
  | _ => ⟨S8192x64, .f32⟩

abbrev hbmTy0_1 (i : Nat) : BufTy := match i % 128 with
  | 0 => ⟨S_, .f32⟩
  | 1 => ⟨S25x8x4, .f32⟩
  | 2 => ⟨S_, .f32⟩
  | 3 => ⟨S25x8x4, .f32⟩
  | 4 => ⟨S_, .f32⟩
  | 5 => ⟨S25x8x4, .f32⟩
  | 6 => ⟨S25x1x8x4, .f32⟩
  | 7 => ⟨S25x8x4, .f32⟩
  | 8 => ⟨S25x8x16, .f32⟩
  | 9 => ⟨S25x32x16, .f32⟩
  | 10 => ⟨S25x32x16, .bf16⟩
  | 11 => ⟨S25x4x4x8, .f32⟩
  | 12 => ⟨S25x1x4x8, .f32⟩
  | 13 => ⟨S25x4x8, .f32⟩
  | 14 => ⟨S_, .f32⟩
  | 15 => ⟨S25x4x8, .f32⟩
  | 16 => ⟨S_, .f32⟩
  | 17 => ⟨S25x4x8, .f32⟩
  | 18 => ⟨S_, .f32⟩
  | 19 => ⟨S25x4x8, .f32⟩
  | 20 => ⟨S25x4x32, .f32⟩
  | 21 => ⟨S_, .f32⟩
  | 22 => ⟨S25x4x8, .f32⟩
  | 23 => ⟨S25x1x4x8, .f32⟩
  | 24 => ⟨S25x4x8, .f32⟩
  | 25 => ⟨S_, .f32⟩
  | 26 => ⟨S25x4x8, .f32⟩
  | 27 => ⟨S_, .f32⟩
  | 28 => ⟨S25x4x8, .f32⟩
  | 29 => ⟨S25x4x32, .f32⟩
  | 30 => ⟨S_, .f32⟩
  | 31 => ⟨S25x4x8, .f32⟩
  | 32 => ⟨S_, .f32⟩
  | 33 => ⟨S25x4x8, .f32⟩
  | 34 => ⟨S25x1x4x8, .f32⟩
  | 35 => ⟨S25x4x8, .f32⟩
  | 36 => ⟨S_, .f32⟩
  | 37 => ⟨S25x4x8, .f32⟩
  | 38 => ⟨S25x4x32, .f32⟩
  | 39 => ⟨S_, .f32⟩
  | 40 => ⟨S25x4x8, .f32⟩
  | 41 => ⟨S_, .f32⟩
  | 42 => ⟨S25x4x8, .f32⟩
  | 43 => ⟨S_, .f32⟩
  | 44 => ⟨S25x4x8, .f32⟩
  | 45 => ⟨S25x1x4x8, .f32⟩
  | 46 => ⟨S25x4x8, .f32⟩
  | 47 => ⟨S25x4x32, .f32⟩
  | 48 => ⟨S25x16x32, .f32⟩
  | 49 => ⟨S25x16x32, .bf16⟩
  | 50 => ⟨S25x4x8x32, .f32⟩
  | 51 => ⟨S25x1x8x32, .f32⟩
  | 52 => ⟨S25x8x32, .f32⟩
  | 53 => ⟨S_, .f32⟩
  | 54 => ⟨S25x8x32, .f32⟩
  | 55 => ⟨S_, .f32⟩
  | 56 => ⟨S25x8x32, .f32⟩
  | 57 => ⟨S_, .f32⟩
  | 58 => ⟨S25x8x32, .f32⟩
  | 59 => ⟨S25x8x128, .f32⟩
  | 60 => ⟨S_, .f32⟩
  | 61 => ⟨S25x8x32, .f32⟩
  | 62 => ⟨S25x1x8x32, .f32⟩
  | 63 => ⟨S25x8x32, .f32⟩
  | 64 => ⟨S_, .f32⟩
  | 65 => ⟨S25x8x32, .f32⟩
  | 66 => ⟨S_, .f32⟩
  | 67 => ⟨S25x8x32, .f32⟩
  | 68 => ⟨S25x8x128, .f32⟩
  | 69 => ⟨S_, .f32⟩
  | 70 => ⟨S25x8x32, .f32⟩
  | 71 => ⟨S_, .f32⟩
  | 72 => ⟨S25x8x32, .f32⟩
  | 73 => ⟨S25x1x8x32, .f32⟩
  | 74 => ⟨S25x8x32, .f32⟩
  | 75 => ⟨S_, .f32⟩
  | 76 => ⟨S25x8x32, .f32⟩
  | 77 => ⟨S25x8x128, .f32⟩
  | 78 => ⟨S_, .f32⟩
  | 79 => ⟨S25x8x32, .f32⟩
  | 80 => ⟨S_, .f32⟩
  | 81 => ⟨S25x8x32, .f32⟩
  | 82 => ⟨S_, .f32⟩
  | 83 => ⟨S25x8x32, .f32⟩
  | 84 => ⟨S25x1x8x32, .f32⟩
  | 85 => ⟨S25x8x32, .f32⟩
  | 86 => ⟨S25x8x128, .f32⟩
  | 87 => ⟨S25x32x128, .f32⟩
  | 88 => ⟨S25x32x128, .bf16⟩
  | 89 => ⟨S25x4x32x64, .f32⟩
  | 90 => ⟨S25x1x32x64, .f32⟩
  | 91 => ⟨S25x32x64, .f32⟩
  | 92 => ⟨S_, .f32⟩
  | 93 => ⟨S25x32x64, .f32⟩
  | 94 => ⟨S_, .f32⟩
  | 95 => ⟨S25x32x64, .f32⟩
  | 96 => ⟨S_, .f32⟩
  | 97 => ⟨S25x32x64, .f32⟩
  | 98 => ⟨S25x32x256, .f32⟩
  | 99 => ⟨S_, .f32⟩
  | 100 => ⟨S25x32x64, .f32⟩
  | 101 => ⟨S25x1x32x64, .f32⟩
  | 102 => ⟨S25x32x64, .f32⟩
  | 103 => ⟨S_, .f32⟩
  | 104 => ⟨S25x32x64, .f32⟩
  | 105 => ⟨S_, .f32⟩
  | 106 => ⟨S25x32x64, .f32⟩
  | 107 => ⟨S25x32x256, .f32⟩
  | 108 => ⟨S_, .f32⟩
  | 109 => ⟨S25x32x64, .f32⟩
  | 110 => ⟨S_, .f32⟩
  | 111 => ⟨S25x32x64, .f32⟩
  | 112 => ⟨S25x1x32x64, .f32⟩
  | 113 => ⟨S25x32x64, .f32⟩
  | 114 => ⟨S_, .f32⟩
  | 115 => ⟨S25x32x64, .f32⟩
  | 116 => ⟨S25x32x256, .f32⟩
  | 117 => ⟨S_, .f32⟩
  | 118 => ⟨S25x32x64, .f32⟩
  | 119 => ⟨S_, .f32⟩
  | 120 => ⟨S25x32x64, .f32⟩
  | 121 => ⟨S_, .f32⟩
  | 122 => ⟨S25x32x64, .f32⟩
  | 123 => ⟨S25x1x32x64, .f32⟩
  | 124 => ⟨S25x32x64, .f32⟩
  | 125 => ⟨S25x32x256, .f32⟩
  | 126 => ⟨S25x128x256, .f32⟩
  | 127 => ⟨S25x128x256, .bf16⟩
  | _ => ⟨S8192x64, .f32⟩

abbrev hbmTy0_2 (i : Nat) : BufTy := match i % 128 with
  | 0 => ⟨S25x4x64x128, .f32⟩
  | 1 => ⟨S25x1x64x128, .f32⟩
  | 2 => ⟨S25x64x128, .f32⟩
  | 3 => ⟨S_, .f32⟩
  | 4 => ⟨S25x64x128, .f32⟩
  | 5 => ⟨S_, .f32⟩
  | 6 => ⟨S25x64x128, .f32⟩
  | 7 => ⟨S_, .f32⟩
  | 8 => ⟨S25x64x128, .f32⟩
  | 9 => ⟨S25x64x512, .f32⟩
  | 10 => ⟨S_, .f32⟩
  | 11 => ⟨S25x64x128, .f32⟩
  | 12 => ⟨S25x1x64x128, .f32⟩
  | 13 => ⟨S25x64x128, .f32⟩
  | 14 => ⟨S_, .f32⟩
  | 15 => ⟨S25x64x128, .f32⟩
  | 16 => ⟨S_, .f32⟩
  | 17 => ⟨S25x64x128, .f32⟩
  | 18 => ⟨S25x64x512, .f32⟩
  | 19 => ⟨S_, .f32⟩
  | 20 => ⟨S25x64x128, .f32⟩
  | 21 => ⟨S_, .f32⟩
  | 22 => ⟨S25x64x128, .f32⟩
  | 23 => ⟨S25x1x64x128, .f32⟩
  | 24 => ⟨S25x64x128, .f32⟩
  | 25 => ⟨S_, .f32⟩
  | 26 => ⟨S25x64x128, .f32⟩
  | 27 => ⟨S25x64x512, .f32⟩
  | 28 => ⟨S_, .f32⟩
  | 29 => ⟨S25x64x128, .f32⟩
  | 30 => ⟨S_, .f32⟩
  | 31 => ⟨S25x64x128, .f32⟩
  | 32 => ⟨S_, .f32⟩
  | 33 => ⟨S25x64x128, .f32⟩
  | 34 => ⟨S25x1x64x128, .f32⟩
  | 35 => ⟨S25x64x128, .f32⟩
  | 36 => ⟨S25x64x512, .f32⟩
  | 37 => ⟨S25x256x512, .f32⟩
  | 38 => ⟨S25x256x512, .bf16⟩
  | 39 => ⟨S25x32, .f32⟩
  | 40 => ⟨S25x1x32, .f32⟩
  | 41 => ⟨S25x16, .f32⟩
  | 42 => ⟨S25x1x16, .f32⟩
  | 43 => ⟨S25x32, .f32⟩
  | 44 => ⟨S25x1x32, .f32⟩
  | 45 => ⟨S25x128, .f32⟩
  | 46 => ⟨S25x1x128, .f32⟩
  | 47 => ⟨S25x256, .f32⟩
  | 48 => ⟨S25x1x256, .f32⟩
  | 49 => ⟨S25x512, .f32⟩
  | 50 => ⟨S25x1x512, .f32⟩
  | 51 => ⟨S100x8192x64, .f32⟩
  | 52 => ⟨S100x8192x64, .f32⟩
  | _ => ⟨S8192x64, .f32⟩

abbrev hbmTy (i : Nat) : BufTy := match i / 128 with
  | 0 => hbmTy0_0 i
  | 1 => hbmTy0_1 i
  | 2 => hbmTy0_2 i
  | _ => ⟨S8192x64, .f32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S2048x64, .f32⟩
  | .local _ .vmem, ⟨2, _⟩ => ⟨S1x256x32, .bf16⟩
  | .local _ .vmem, ⟨3, _⟩ => ⟨S1x256x32, .bf16⟩
  | .local _ .vmem, ⟨4, _⟩ => ⟨S1x1x32, .f32⟩
  | .local _ .vmem, ⟨5, _⟩ => ⟨S1x1x32, .f32⟩
  | .local _ .vmem, ⟨6, _⟩ => ⟨S1x32x16, .bf16⟩
  | .local _ .vmem, ⟨7, _⟩ => ⟨S1x32x16, .bf16⟩
  | .local _ .vmem, ⟨8, _⟩ => ⟨S1x1x16, .f32⟩
  | .local _ .vmem, ⟨9, _⟩ => ⟨S1x1x16, .f32⟩
  | .local _ .vmem, ⟨10, _⟩ => ⟨S1x16x32, .bf16⟩
  | .local _ .vmem, ⟨11, _⟩ => ⟨S1x16x32, .bf16⟩
  | .local _ .vmem, ⟨12, _⟩ => ⟨S1x1x32, .f32⟩
  | .local _ .vmem, ⟨13, _⟩ => ⟨S1x1x32, .f32⟩
  | .local _ .vmem, ⟨14, _⟩ => ⟨S1x32x128, .bf16⟩
  | .local _ .vmem, ⟨15, _⟩ => ⟨S1x32x128, .bf16⟩
  | .local _ .vmem, ⟨16, _⟩ => ⟨S1x1x128, .f32⟩
  | .local _ .vmem, ⟨17, _⟩ => ⟨S1x1x128, .f32⟩
  | .local _ .vmem, ⟨18, _⟩ => ⟨S1x128x256, .bf16⟩
  | .local _ .vmem, ⟨19, _⟩ => ⟨S1x128x256, .bf16⟩
  | .local _ .vmem, ⟨20, _⟩ => ⟨S1x1x256, .f32⟩
  | .local _ .vmem, ⟨21, _⟩ => ⟨S1x1x256, .f32⟩
  | .local _ .vmem, ⟨22, _⟩ => ⟨S1x256x512, .bf16⟩
  | .local _ .vmem, ⟨23, _⟩ => ⟨S1x256x512, .bf16⟩
  | .local _ .vmem, ⟨24, _⟩ => ⟨S1x1x512, .f32⟩
  | .local _ .vmem, ⟨25, _⟩ => ⟨S1x1x512, .f32⟩
  | .local _ .vmem, ⟨26, _⟩ => ⟨S4x2048x64, .f32⟩
  | .local _ .vmem, ⟨27, _⟩ => ⟨S4x2048x64, .f32⟩
  | .local _ .vmem, ⟨28, _⟩ => ⟨S4x2048x64, .f32⟩
  | .local _ .vmem, ⟨29, _⟩ => ⟨S4x2048x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_cst_9 : Ref sig .tc := ⟨.hbm, 68, rfl⟩
abbrev main_v37 : Ref sig .tc := ⟨.hbm, 69, rfl⟩
abbrev main_v38 : Ref sig .tc := ⟨.hbm, 70, rfl⟩
abbrev main_cst_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_11 : Ref sig .tc := ⟨.hbm, 75, rfl⟩
abbrev main_v42 : Ref sig .tc := ⟨.hbm, 76, rfl⟩
abbrev main_cst_12 : Ref sig .tc := ⟨.hbm, 77, rfl⟩
abbrev main_v43 : Ref sig .tc := ⟨.hbm, 78, rfl⟩
abbrev main_v44 : Ref sig .tc := ⟨.hbm, 79, rfl⟩
abbrev main_cst_13 : Ref sig .tc := ⟨.hbm, 80, rfl⟩
abbrev main_v45 : Ref sig .tc := ⟨.hbm, 81, rfl⟩
abbrev main_cst_14 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_15 : Ref sig .tc := ⟨.hbm, 86, rfl⟩
abbrev main_v49 : Ref sig .tc := ⟨.hbm, 87, rfl⟩
abbrev main_v50 : Ref sig .tc := ⟨.hbm, 88, rfl⟩
abbrev main_cst_16 : Ref sig .tc := ⟨.hbm, 89, rfl⟩
abbrev main_v51 : Ref sig .tc := ⟨.hbm, 90, rfl⟩
abbrev main_cst_17 : Ref sig .tc := ⟨.hbm, 91, rfl⟩
abbrev main_v52 : Ref sig .tc := ⟨.hbm, 92, rfl⟩
abbrev main_cst_18 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_19 : Ref sig .tc := ⟨.hbm, 103, rfl⟩
abbrev main_v62 : Ref sig .tc := ⟨.hbm, 104, rfl⟩
abbrev main_cst_20 : Ref sig .tc := ⟨.hbm, 105, rfl⟩
abbrev main_v63 : Ref sig .tc := ⟨.hbm, 106, rfl⟩
abbrev main_cst_21 : Ref sig .tc := ⟨.hbm, 107, rfl⟩
abbrev main_v64 : Ref sig .tc := ⟨.hbm, 108, rfl⟩
abbrev main_v65 : Ref sig .tc := ⟨.hbm, 109, rfl⟩
abbrev main_cst_22 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_23 : Ref sig .tc := ⟨.hbm, 114, rfl⟩
abbrev main_v69 : Ref sig .tc := ⟨.hbm, 115, rfl⟩
abbrev main_cst_24 : Ref sig .tc := ⟨.hbm, 116, rfl⟩
abbrev main_v70 : Ref sig .tc := ⟨.hbm, 117, rfl⟩
abbrev main_v71 : Ref sig .tc := ⟨.hbm, 118, rfl⟩
abbrev main_cst_25 : Ref sig .tc := ⟨.hbm, 119, rfl⟩
abbrev main_v72 : Ref sig .tc := ⟨.hbm, 120, rfl⟩
abbrev main_cst_26 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_27 : Ref sig .tc := ⟨.hbm, 125, rfl⟩
abbrev main_v76 : Ref sig .tc := ⟨.hbm, 126, rfl⟩
abbrev main_v77 : Ref sig .tc := ⟨.hbm, 127, rfl⟩
abbrev main_cst_28 : Ref sig .tc := ⟨.hbm, 128, rfl⟩
abbrev main_v78 : Ref sig .tc := ⟨.hbm, 129, rfl⟩
abbrev main_cst_29 : Ref sig .tc := ⟨.hbm, 130, rfl⟩
abbrev main_v79 : Ref sig .tc := ⟨.hbm, 131, rfl⟩
abbrev main_cst_30 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_31 : Ref sig .tc := ⟨.hbm, 142, rfl⟩
abbrev main_v89 : Ref sig .tc := ⟨.hbm, 143, rfl⟩
abbrev main_cst_32 : Ref sig .tc := ⟨.hbm, 144, rfl⟩
abbrev main_v90 : Ref sig .tc := ⟨.hbm, 145, rfl⟩
abbrev main_cst_33 : Ref sig .tc := ⟨.hbm, 146, rfl⟩
abbrev main_v91 : Ref sig .tc := ⟨.hbm, 147, rfl⟩
abbrev main_v92 : Ref sig .tc := ⟨.hbm, 148, rfl⟩
abbrev main_cst_34 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_35 : Ref sig .tc := ⟨.hbm, 153, rfl⟩
abbrev main_v96 : Ref sig .tc := ⟨.hbm, 154, rfl⟩
abbrev main_cst_36 : Ref sig .tc := ⟨.hbm, 155, rfl⟩
abbrev main_v97 : Ref sig .tc := ⟨.hbm, 156, rfl⟩
abbrev main_v98 : Ref sig .tc := ⟨.hbm, 157, rfl⟩
abbrev main_cst_37 : Ref sig .tc := ⟨.hbm, 158, rfl⟩
abbrev main_v99 : Ref sig .tc := ⟨.hbm, 159, rfl⟩
abbrev main_cst_38 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_39 : Ref sig .tc := ⟨.hbm, 164, rfl⟩
abbrev main_v103 : Ref sig .tc := ⟨.hbm, 165, rfl⟩
abbrev main_v104 : Ref sig .tc := ⟨.hbm, 166, rfl⟩
abbrev main_cst_40 : Ref sig .tc := ⟨.hbm, 167, rfl⟩
abbrev main_v105 : Ref sig .tc := ⟨.hbm, 168, rfl⟩
abbrev main_cst_41 : Ref sig .tc := ⟨.hbm, 169, rfl⟩
abbrev main_v106 : Ref sig .tc := ⟨.hbm, 170, rfl⟩
abbrev main_cst_42 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_cst_43 : Ref sig .tc := ⟨.hbm, 181, rfl⟩
abbrev main_v116 : Ref sig .tc := ⟨.hbm, 182, rfl⟩
abbrev main_cst_44 : Ref sig .tc := ⟨.hbm, 183, rfl⟩
abbrev main_v117 : Ref sig .tc := ⟨.hbm, 184, rfl⟩
abbrev main_cst_45 : Ref sig .tc := ⟨.hbm, 185, rfl⟩
abbrev main_v118 : Ref sig .tc := ⟨.hbm, 186, rfl⟩
abbrev main_v119 : Ref sig .tc := ⟨.hbm, 187, rfl⟩
abbrev main_cst_46 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_47 : Ref sig .tc := ⟨.hbm, 192, rfl⟩
abbrev main_v123 : Ref sig .tc := ⟨.hbm, 193, rfl⟩
abbrev main_cst_48 : Ref sig .tc := ⟨.hbm, 194, rfl⟩
abbrev main_v124 : Ref sig .tc := ⟨.hbm, 195, rfl⟩
abbrev main_v125 : Ref sig .tc := ⟨.hbm, 196, rfl⟩
abbrev main_cst_49 : Ref sig .tc := ⟨.hbm, 197, rfl⟩
abbrev main_v126 : Ref sig .tc := ⟨.hbm, 198, rfl⟩
abbrev main_cst_50 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_cst_51 : Ref sig .tc := ⟨.hbm, 203, rfl⟩
abbrev main_v130 : Ref sig .tc := ⟨.hbm, 204, rfl⟩
abbrev main_v131 : Ref sig .tc := ⟨.hbm, 205, rfl⟩
abbrev main_cst_52 : Ref sig .tc := ⟨.hbm, 206, rfl⟩
abbrev main_v132 : Ref sig .tc := ⟨.hbm, 207, rfl⟩
abbrev main_cst_53 : Ref sig .tc := ⟨.hbm, 208, rfl⟩
abbrev main_v133 : Ref sig .tc := ⟨.hbm, 209, rfl⟩
abbrev main_cst_54 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_cst_55 : Ref sig .tc := ⟨.hbm, 220, rfl⟩
abbrev main_v143 : Ref sig .tc := ⟨.hbm, 221, rfl⟩
abbrev main_cst_56 : Ref sig .tc := ⟨.hbm, 222, rfl⟩
abbrev main_v144 : Ref sig .tc := ⟨.hbm, 223, rfl⟩
abbrev main_cst_57 : Ref sig .tc := ⟨.hbm, 224, rfl⟩
abbrev main_v145 : Ref sig .tc := ⟨.hbm, 225, rfl⟩
abbrev main_v146 : Ref sig .tc := ⟨.hbm, 226, rfl⟩
abbrev main_cst_58 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_cst_59 : Ref sig .tc := ⟨.hbm, 231, rfl⟩
abbrev main_v150 : Ref sig .tc := ⟨.hbm, 232, rfl⟩
abbrev main_cst_60 : Ref sig .tc := ⟨.hbm, 233, rfl⟩
abbrev main_v151 : Ref sig .tc := ⟨.hbm, 234, rfl⟩
abbrev main_v152 : Ref sig .tc := ⟨.hbm, 235, rfl⟩
abbrev main_cst_61 : Ref sig .tc := ⟨.hbm, 236, rfl⟩
abbrev main_v153 : Ref sig .tc := ⟨.hbm, 237, rfl⟩
abbrev main_cst_62 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_cst_63 : Ref sig .tc := ⟨.hbm, 242, rfl⟩
abbrev main_v157 : Ref sig .tc := ⟨.hbm, 243, rfl⟩
abbrev main_v158 : Ref sig .tc := ⟨.hbm, 244, rfl⟩
abbrev main_cst_64 : Ref sig .tc := ⟨.hbm, 245, rfl⟩
abbrev main_v159 : Ref sig .tc := ⟨.hbm, 246, rfl⟩
abbrev main_cst_65 : Ref sig .tc := ⟨.hbm, 247, rfl⟩
abbrev main_v160 : Ref sig .tc := ⟨.hbm, 248, rfl⟩
abbrev main_cst_66 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_cst_67 : Ref sig .tc := ⟨.hbm, 259, rfl⟩
abbrev main_v170 : Ref sig .tc := ⟨.hbm, 260, rfl⟩
abbrev main_cst_68 : Ref sig .tc := ⟨.hbm, 261, rfl⟩
abbrev main_v171 : Ref sig .tc := ⟨.hbm, 262, rfl⟩
abbrev main_cst_69 : Ref sig .tc := ⟨.hbm, 263, rfl⟩
abbrev main_v172 : Ref sig .tc := ⟨.hbm, 264, rfl⟩
abbrev main_v173 : Ref sig .tc := ⟨.hbm, 265, rfl⟩
abbrev main_cst_70 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_cst_71 : Ref sig .tc := ⟨.hbm, 270, rfl⟩
abbrev main_v177 : Ref sig .tc := ⟨.hbm, 271, rfl⟩
abbrev main_cst_72 : Ref sig .tc := ⟨.hbm, 272, rfl⟩
abbrev main_v178 : Ref sig .tc := ⟨.hbm, 273, rfl⟩
abbrev main_v179 : Ref sig .tc := ⟨.hbm, 274, rfl⟩
abbrev main_cst_73 : Ref sig .tc := ⟨.hbm, 275, rfl⟩
abbrev main_v180 : Ref sig .tc := ⟨.hbm, 276, rfl⟩
abbrev main_cst_74 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_cst_75 : Ref sig .tc := ⟨.hbm, 281, rfl⟩
abbrev main_v184 : Ref sig .tc := ⟨.hbm, 282, rfl⟩
abbrev main_v185 : Ref sig .tc := ⟨.hbm, 283, rfl⟩
abbrev main_cst_76 : Ref sig .tc := ⟨.hbm, 284, rfl⟩
abbrev main_v186 : Ref sig .tc := ⟨.hbm, 285, rfl⟩
abbrev main_cst_77 : Ref sig .tc := ⟨.hbm, 286, rfl⟩
abbrev main_v187 : Ref sig .tc := ⟨.hbm, 287, rfl⟩
abbrev main_cst_78 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206_0 : Ref sig .tc := ⟨.hbm, 307, rfl⟩
abbrev main_v206_1 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S4x2048x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x2048x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  bcast_S100_S100x1_0 : S100.BroadcastsInDim S100x1 (![0] : Fin 1 → Fin S100x1.rank)
  bcast_S_S100x64x8 : S_.BroadcastsInDim S100x64x8 (![] : Fin 0 → Fin S100x64x8.rank)
  bcast_S_S100x1 : S_.BroadcastsInDim S100x1 (![] : Fin 0 → Fin S100x1.rank)
  bcast_S_S100x16 : S_.BroadcastsInDim S100x16 (![] : Fin 0 → Fin S100x16.rank)
  bcast_S100x1_S100x16_0_1 : S100x1.BroadcastsInDim S100x16 (![0, 1] : Fin 2 → Fin S100x16.rank)
  bcast_S100x16_S100x16x1_0_1 : S100x16.BroadcastsInDim S100x16x1 (![0, 1] : Fin 2 → Fin S100x16x1.rank)
  concatenates_S100x16x1_S100x16x1_S100x16x2_d2 : Shape.Concatenates [S100x16x1, S100x16x1] S100x16x2 2
  concatenates_S100x8x16_S100x8x16_S100x8x32_d2 : Shape.Concatenates [S100x8x16, S100x8x16] S100x8x32 2
  concatenates_S100x16_S100x16_S100x32_d1 : Shape.Concatenates [S100x16, S100x16] S100x32 1
  bcast_S_S100x16x32 : S_.BroadcastsInDim S100x16x32 (![] : Fin 0 → Fin S100x16x32.rank)
  concatenates_S100x16x32_S100x16x32_S100x16x64_d2 : Shape.Concatenates [S100x16x32, S100x16x32] S100x16x64 2
  concatenates_S100x16x64_S100x16x64_S100x32x64_d1 : Shape.Concatenates [S100x16x64, S100x16x64] S100x32x64 1
  concatenates_S100x32_S100x32_S100x64_d1 : Shape.Concatenates [S100x32, S100x32] S100x64 1
  bcast_S_S100x32x64 : S_.BroadcastsInDim S100x32x64 (![] : Fin 0 → Fin S100x32x64.rank)
  concatenates_S100x32x64_S100x32x64_S100x32x128_d2 : Shape.Concatenates [S100x32x64, S100x32x64] S100x32x128 2
  concatenates_S100x32x128_S100x32x128_S100x64x128_d1 : Shape.Concatenates [S100x32x128, S100x32x128] S100x64x128 1
  concatenates_S100x64_S100x64_S100x128_d1 : Shape.Concatenates [S100x64, S100x64] S100x128 1
  shapeCasts_S100x64x8_S25x4x64x8 : S100x64x8.ShapeCasts S25x4x64x8
  slices_S25x4x64x8_S25x1x64x8_0_0_0_0 : S25x4x64x8.Slices ![0, 0, 0, 0] S25x1x64x8
  shapeCasts_S25x1x64x8_S25x64x8 : S25x1x64x8.ShapeCasts S25x64x8
  bcast_S_S25x64x8 : S_.BroadcastsInDim S25x64x8 (![] : Fin 0 → Fin S25x64x8.rank)
  concatenates_S25x64x8_S25x64x8_S25x64x8_S25x64x8_S25x64x32_d2 : Shape.Concatenates [S25x64x8, S25x64x8, S25x64x8, S25x64x8] S25x64x32 2
  slices_S25x4x64x8_S25x1x64x8_0_1_0_0 : S25x4x64x8.Slices ![0, 1, 0, 0] S25x1x64x8
  slices_S25x4x64x8_S25x1x64x8_0_2_0_0 : S25x4x64x8.Slices ![0, 2, 0, 0] S25x1x64x8
  slices_S25x4x64x8_S25x1x64x8_0_3_0_0 : S25x4x64x8.Slices ![0, 3, 0, 0] S25x1x64x8
  concatenates_S25x64x32_S25x64x32_S25x64x32_S25x64x32_S25x256x32_d1 : Shape.Concatenates [S25x64x32, S25x64x32, S25x64x32, S25x64x32] S25x256x32 1
  bitsLt_bf16_f32 : FTy.bits .bf16 < FTy.bits .f32
  shapeCasts_S100x8x4_S25x4x8x4 : S100x8x4.ShapeCasts S25x4x8x4
  slices_S25x4x8x4_S25x1x8x4_0_0_0_0 : S25x4x8x4.Slices ![0, 0, 0, 0] S25x1x8x4
  shapeCasts_S25x1x8x4_S25x8x4 : S25x1x8x4.ShapeCasts S25x8x4
  bcast_S_S25x8x4 : S_.BroadcastsInDim S25x8x4 (![] : Fin 0 → Fin S25x8x4.rank)
  concatenates_S25x8x4_S25x8x4_S25x8x4_S25x8x4_S25x8x16_d2 : Shape.Concatenates [S25x8x4, S25x8x4, S25x8x4, S25x8x4] S25x8x16 2
  slices_S25x4x8x4_S25x1x8x4_0_1_0_0 : S25x4x8x4.Slices ![0, 1, 0, 0] S25x1x8x4
  slices_S25x4x8x4_S25x1x8x4_0_2_0_0 : S25x4x8x4.Slices ![0, 2, 0, 0] S25x1x8x4
  slices_S25x4x8x4_S25x1x8x4_0_3_0_0 : S25x4x8x4.Slices ![0, 3, 0, 0] S25x1x8x4
  concatenates_S25x8x16_S25x8x16_S25x8x16_S25x8x16_S25x32x16_d1 : Shape.Concatenates [S25x8x16, S25x8x16, S25x8x16, S25x8x16] S25x32x16 1
  shapeCasts_S100x4x8_S25x4x4x8 : S100x4x8.ShapeCasts S25x4x4x8
  slices_S25x4x4x8_S25x1x4x8_0_0_0_0 : S25x4x4x8.Slices ![0, 0, 0, 0] S25x1x4x8
  shapeCasts_S25x1x4x8_S25x4x8 : S25x1x4x8.ShapeCasts S25x4x8
  bcast_S_S25x4x8 : S_.BroadcastsInDim S25x4x8 (![] : Fin 0 → Fin S25x4x8.rank)
  concatenates_S25x4x8_S25x4x8_S25x4x8_S25x4x8_S25x4x32_d2 : Shape.Concatenates [S25x4x8, S25x4x8, S25x4x8, S25x4x8] S25x4x32 2
  slices_S25x4x4x8_S25x1x4x8_0_1_0_0 : S25x4x4x8.Slices ![0, 1, 0, 0] S25x1x4x8
  slices_S25x4x4x8_S25x1x4x8_0_2_0_0 : S25x4x4x8.Slices ![0, 2, 0, 0] S25x1x4x8
  slices_S25x4x4x8_S25x1x4x8_0_3_0_0 : S25x4x4x8.Slices ![0, 3, 0, 0] S25x1x4x8
  concatenates_S25x4x32_S25x4x32_S25x4x32_S25x4x32_S25x16x32_d1 : Shape.Concatenates [S25x4x32, S25x4x32, S25x4x32, S25x4x32] S25x16x32 1
  shapeCasts_S100x8x32_S25x4x8x32 : S100x8x32.ShapeCasts S25x4x8x32
  slices_S25x4x8x32_S25x1x8x32_0_0_0_0 : S25x4x8x32.Slices ![0, 0, 0, 0] S25x1x8x32
  shapeCasts_S25x1x8x32_S25x8x32 : S25x1x8x32.ShapeCasts S25x8x32
  bcast_S_S25x8x32 : S_.BroadcastsInDim S25x8x32 (![] : Fin 0 → Fin S25x8x32.rank)
  concatenates_S25x8x32_S25x8x32_S25x8x32_S25x8x32_S25x8x128_d2 : Shape.Concatenates [S25x8x32, S25x8x32, S25x8x32, S25x8x32] S25x8x128 2
  slices_S25x4x8x32_S25x1x8x32_0_1_0_0 : S25x4x8x32.Slices ![0, 1, 0, 0] S25x1x8x32
  slices_S25x4x8x32_S25x1x8x32_0_2_0_0 : S25x4x8x32.Slices ![0, 2, 0, 0] S25x1x8x32
  slices_S25x4x8x32_S25x1x8x32_0_3_0_0 : S25x4x8x32.Slices ![0, 3, 0, 0] S25x1x8x32
  concatenates_S25x8x128_S25x8x128_S25x8x128_S25x8x128_S25x32x128_d1 : Shape.Concatenates [S25x8x128, S25x8x128, S25x8x128, S25x8x128] S25x32x128 1
  shapeCasts_S100x32x64_S25x4x32x64 : S100x32x64.ShapeCasts S25x4x32x64
  slices_S25x4x32x64_S25x1x32x64_0_0_0_0 : S25x4x32x64.Slices ![0, 0, 0, 0] S25x1x32x64
  shapeCasts_S25x1x32x64_S25x32x64 : S25x1x32x64.ShapeCasts S25x32x64
  bcast_S_S25x32x64 : S_.BroadcastsInDim S25x32x64 (![] : Fin 0 → Fin S25x32x64.rank)
  concatenates_S25x32x64_S25x32x64_S25x32x64_S25x32x64_S25x32x256_d2 : Shape.Concatenates [S25x32x64, S25x32x64, S25x32x64, S25x32x64] S25x32x256 2
  slices_S25x4x32x64_S25x1x32x64_0_1_0_0 : S25x4x32x64.Slices ![0, 1, 0, 0] S25x1x32x64
  slices_S25x4x32x64_S25x1x32x64_0_2_0_0 : S25x4x32x64.Slices ![0, 2, 0, 0] S25x1x32x64
  slices_S25x4x32x64_S25x1x32x64_0_3_0_0 : S25x4x32x64.Slices ![0, 3, 0, 0] S25x1x32x64
  concatenates_S25x32x256_S25x32x256_S25x32x256_S25x32x256_S25x128x256_d1 : Shape.Concatenates [S25x32x256, S25x32x256, S25x32x256, S25x32x256] S25x128x256 1
  shapeCasts_S100x64x128_S25x4x64x128 : S100x64x128.ShapeCasts S25x4x64x128
  slices_S25x4x64x128_S25x1x64x128_0_0_0_0 : S25x4x64x128.Slices ![0, 0, 0, 0] S25x1x64x128
  shapeCasts_S25x1x64x128_S25x64x128 : S25x1x64x128.ShapeCasts S25x64x128
  bcast_S_S25x64x128 : S_.BroadcastsInDim S25x64x128 (![] : Fin 0 → Fin S25x64x128.rank)
  concatenates_S25x64x128_S25x64x128_S25x64x128_S25x64x128_S25x64x512_d2 : Shape.Concatenates [S25x64x128, S25x64x128, S25x64x128, S25x64x128] S25x64x512 2
  slices_S25x4x64x128_S25x1x64x128_0_1_0_0 : S25x4x64x128.Slices ![0, 1, 0, 0] S25x1x64x128
  slices_S25x4x64x128_S25x1x64x128_0_2_0_0 : S25x4x64x128.Slices ![0, 2, 0, 0] S25x1x64x128
  slices_S25x4x64x128_S25x1x64x128_0_3_0_0 : S25x4x64x128.Slices ![0, 3, 0, 0] S25x1x64x128
  concatenates_S25x64x512_S25x64x512_S25x64x512_S25x64x512_S25x256x512_d1 : Shape.Concatenates [S25x64x512, S25x64x512, S25x64x512, S25x64x512] S25x256x512 1
  shapeCasts_S100x8_S25x32 : S100x8.ShapeCasts S25x32
  bcast_S25x32_S25x1x32_0_2 : S25x32.BroadcastsInDim S25x1x32 (![0, 2] : Fin 2 → Fin S25x1x32.rank)
  shapeCasts_S100x4_S25x16 : S100x4.ShapeCasts S25x16
  bcast_S25x16_S25x1x16_0_2 : S25x16.BroadcastsInDim S25x1x16 (![0, 2] : Fin 2 → Fin S25x1x16.rank)
  shapeCasts_S100x32_S25x128 : S100x32.ShapeCasts S25x128
  bcast_S25x128_S25x1x128_0_2 : S25x128.BroadcastsInDim S25x1x128 (![0, 2] : Fin 2 → Fin S25x1x128.rank)
  shapeCasts_S100x64_S25x256 : S100x64.ShapeCasts S25x256
  bcast_S25x256_S25x1x256_0_2 : S25x256.BroadcastsInDim S25x1x256 (![0, 2] : Fin 2 → Fin S25x1x256.rank)
  shapeCasts_S100x128_S25x512 : S100x128.ShapeCasts S25x512
  bcast_S25x512_S25x1x512_0_2 : S25x512.BroadcastsInDim S25x1x512 (![0, 2] : Fin 2 → Fin S25x1x512.rank)
  inb_S2048x64_S2048x64_0_0 : ∀ a, (![0, 0] : Fin 2 → Nat) a + S2048x64.size a ≤ S2048x64.size a
  h_S2048x64 : 0 < S2048x64.numel
  concatenates_S2048x64_S2048x64_S2048x64_S2048x64_S2048x256_d1 : Shape.Concatenates [S2048x64, S2048x64, S2048x64, S2048x64] S2048x256 1
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  broadcasts_S1x32_S2048x32 : S1x32.Broadcasts S2048x32
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  broadcasts_S1x16_S2048x16 : S1x16.Broadcasts S2048x16
  inb_S1x16x32_S1x16x32_0_0_0 : ∀ a, (![0, 0, 0] : Fin 3 → Nat) a + S1x16x32.size a ≤ S1x16x32.size a
  h_S1x16x32 : 0 < S1x16x32.numel
  shapeCasts_S1x16x32_S16x32 : S1x16x32.ShapeCasts S16x32
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2048x128 : S1x128.Broadcasts S2048x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  slices_S2048x512_o0_0_S2048x64 : S2048x512.Slices ![0, 0] S2048x64
  slices_S2048x512_o0_128_S2048x64 : S2048x512.Slices ![0, 128] S2048x64
  slices_S2048x512_o0_256_S2048x64 : S2048x512.Slices ![0, 256] S2048x64
  slices_S2048x512_o0_384_S2048x64 : S2048x512.Slices ![0, 384] S2048x64
  slices_S2048x512_o0_64_S2048x64 : S2048x512.Slices ![0, 64] S2048x64
  slices_S2048x512_o0_192_S2048x64 : S2048x512.Slices ![0, 192] S2048x64
  slices_S2048x512_o0_320_S2048x64 : S2048x512.Slices ![0, 320] S2048x64
  slices_S2048x512_o0_448_S2048x64 : S2048x512.Slices ![0, 448] S2048x64
  shapeCasts_S2048x64_S1x2048x64 : S2048x64.ShapeCasts S1x2048x64
  concatenates_S1x2048x64_S1x2048x64_S1x2048x64_S1x2048x64_S4x2048x64_d0 : Shape.Concatenates [S1x2048x64, S1x2048x64, S1x2048x64, S1x2048x64] S4x2048x64 0
  inb_S4x2048x64_S4x2048x64_0_0_0 : ∀ a, (![0, 0, 0] : Fin 3 → Nat) a + S4x2048x64.size a ≤ S4x2048x64.size a
  h_S4x2048x64 : 0 < S4x2048x64.numel
  scatter_S100x64x8_S100x16x2_S100x16x8_2_01_01_2_wf : ScatterDims.WF S100x64x8 S100x16x2 S100x16x8 [2] [0, 1] [0, 1] 2
  dot_S2048x256_S256x32_S2048x32_1_0_0_1_n_n_wf : DotDims.WF S2048x256 S256x32 S2048x32 [1] [0] [0] [1] [] []
  dot_S2048x32_S32x16_S2048x16_1_0_0_1_n_n_wf : DotDims.WF S2048x32 S32x16 S2048x16 [1] [0] [0] [1] [] []
  dot_S2048x16_S16x32_S2048x32_1_0_0_1_n_n_wf : DotDims.WF S2048x16 S16x32 S2048x32 [1] [0] [0] [1] [] []
  dot_S2048x32_S32x128_S2048x128_1_0_0_1_n_n_wf : DotDims.WF S2048x32 S32x128 S2048x128 [1] [0] [0] [1] [] []
  dot_S2048x128_S128x256_S2048x256_1_0_0_1_n_n_wf : DotDims.WF S2048x128 S128x256 S2048x256 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32.size a ≤ S25x256x32.size a
  hwx0_1 : ∀ i : grid0.Coords, EltTy.bits .bf16 = 32 ∨ (Rect.block (s := S25x256x32) S1x256x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32.size a ≤ S25x1x32.size a
  hwx0_2 : ∀ i : grid0.Coords, EltTy.bits .f32 = 32 ∨ (Rect.block (s := S25x1x32) S1x1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x16.size a ≤ S25x32x16.size a
  hwx0_3 : ∀ i : grid0.Coords, EltTy.bits .bf16 = 32 ∨ (Rect.block (s := S25x32x16) S1x32x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16.size a ≤ S25x1x16.size a
  hwx0_4 : ∀ i : grid0.Coords, EltTy.bits .f32 = 32 ∨ (Rect.block (s := S25x1x16) S1x1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x32.size a ≤ S25x16x32.size a
  hwx0_5 : ∀ i : grid0.Coords, EltTy.bits .bf16 = 32 ∨ (Rect.block (s := S25x16x32) S1x16x32.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x32.size a ≤ S25x1x32.size a
  hwx0_6 : ∀ i : grid0.Coords, EltTy.bits .f32 = 32 ∨ (Rect.block (s := S25x1x32) S1x1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x128.size a ≤ S25x32x128.size a
  hwx0_7 : ∀ i : grid0.Coords, EltTy.bits .bf16 = 32 ∨ (Rect.block (s := S25x32x128) S1x32x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S25x1x128.size a
  hwx0_8 : ∀ i : grid0.Coords, EltTy.bits .f32 = 32 ∨ (Rect.block (s := S25x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x256.size a ≤ S25x128x256.size a
  hwx0_9 : ∀ i : grid0.Coords, EltTy.bits .bf16 = 32 ∨ (Rect.block (s := S25x128x256) S1x128x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256.size a ≤ S25x1x256.size a
  hwx0_10 : ∀ i : grid0.Coords, EltTy.bits .f32 = 32 ∨ (Rect.block (s := S25x1x256) S1x1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x512.size a ≤ S25x256x512.size a
  hwx0_11 : ∀ i : grid0.Coords, EltTy.bits .bf16 = 32 ∨ (Rect.block (s := S25x256x512) S1x256x512.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x512.size a ≤ S25x1x512.size a
  hwx0_12 : ∀ i : grid0.Coords, EltTy.bits .f32 = 32 ∨ (Rect.block (s := S25x1x512) S1x1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x2048x64.size a ≤ S100x8192x64.size a
  hwx0_13 : ∀ i : grid0.Coords, EltTy.bits .f32 = 32 ∨ (Rect.block (s := S100x8192x64) S4x2048x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4x2048x64.size a ≤ S100x8192x64.size a
  hwx0_14 : ∀ i : grid0.Coords, EltTy.bits .f32 = 32 ∨ (Rect.block (s := S100x8192x64) S4x2048x64.size (cc0_transform_14 i) (hinb0_14 i)).WholeWords (EltTy.packing .f32)

variable [Facts₀]

def scatter_S100x64x8_S100x16x2_S100x16x8_2_01_01_2 : ScatterDims S100x64x8 S100x16x2 S100x16x8 where
  updateWindowDims := [2]
  insertedWindowDims := [0, 1]
  scatterDimsToOperandDims := [0, 1]
  indexVectorDim := 2
  wf := scatter_S100x64x8_S100x16x2_S100x16x8_2_01_01_2_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S1x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v195) S1x1x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S1x32x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v197) S1x1x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v112) S1x16x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v199) S1x1x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v139) S1x32x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v201) S1x1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v166) S1x128x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v203) S1x1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v193) S1x256x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v205) S1x1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v206_0) S4x2048x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v206_1) S4x2048x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x64 : Shape := ⟨2, ![8192, 64]⟩
abbrev S100x16 : Shape := ⟨2, ![100, 16]⟩
abbrev S100x16x8 : Shape := ⟨3, ![100, 16, 8]⟩
abbrev S100x8 : Shape := ⟨2, ![100, 8]⟩
abbrev S100x8x4 : Shape := ⟨3, ![100, 8, 4]⟩
abbrev S100x4 : Shape := ⟨2, ![100, 4]⟩
abbrev S100x4x8 : Shape := ⟨3, ![100, 4, 8]⟩
abbrev S100x8x16 : Shape := ⟨3, ![100, 8, 16]⟩
abbrev S100x16x32 : Shape := ⟨3, ![100, 16, 32]⟩
abbrev S100x32 : Shape := ⟨2, ![100, 32]⟩
abbrev S100x32x64 : Shape := ⟨3, ![100, 32, 64]⟩
abbrev S100x64 : Shape := ⟨2, ![100, 64]⟩
abbrev S_ : Shape := ⟨0, ![]⟩
abbrev S100x16x1 : Shape := ⟨3, ![100, 16, 1]⟩
abbrev S8192x100x16 : Shape := ⟨3, ![8192, 100, 16]⟩
abbrev S100x8192x16 : Shape := ⟨3, ![100, 8192, 16]⟩
abbrev S100x8192x8 : Shape := ⟨3, ![100, 8192, 8]⟩
abbrev S100x1x8 : Shape := ⟨3, ![100, 1, 8]⟩
abbrev S100x8192x4 : Shape := ⟨3, ![100, 8192, 4]⟩
abbrev S100x1x4 : Shape := ⟨3, ![100, 1, 4]⟩
abbrev S100x1x16 : Shape := ⟨3, ![100, 1, 16]⟩
abbrev S100x8192x32 : Shape := ⟨3, ![100, 8192, 32]⟩
abbrev S100x1x32 : Shape := ⟨3, ![100, 1, 32]⟩
abbrev S100x8192x64 : Shape := ⟨3, ![100, 8192, 64]⟩
abbrev S100x1x64 : Shape := ⟨3, ![100, 1, 64]⟩

abbrev nBuf : Space → Nat
  | .hbm => 87
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S100x16, .i32⟩
  | .hbm, ⟨2, _⟩ => ⟨S100x16x8, .f32⟩
  | .hbm, ⟨3, _⟩ => ⟨S100x8, .f32⟩
  | .hbm, ⟨4, _⟩ => ⟨S100x8x4, .f32⟩
  | .hbm, ⟨5, _⟩ => ⟨S100x4, .f32⟩
  | .hbm, ⟨6, _⟩ => ⟨S100x4x8, .f32⟩
  | .hbm, ⟨7, _⟩ => ⟨S100x8, .f32⟩
  | .hbm, ⟨8, _⟩ => ⟨S100x8x16, .f32⟩
  | .hbm, ⟨9, _⟩ => ⟨S100x16, .f32⟩
  | .hbm, ⟨10, _⟩ => ⟨S100x16x32, .f32⟩
  | .hbm, ⟨11, _⟩ => ⟨S100x32, .f32⟩
  | .hbm, ⟨12, _⟩ => ⟨S100x32x64, .f32⟩
  | .hbm, ⟨13, _⟩ => ⟨S100x64, .f32⟩
  | .hbm, ⟨14, _⟩ => ⟨S100x8x16, .f32⟩
  | .hbm, ⟨15, _⟩ => ⟨S100x16, .f32⟩
  | .hbm, ⟨16, _⟩ => ⟨S100x16x32, .f32⟩
  | .hbm, ⟨17, _⟩ => ⟨S100x32, .f32⟩
  | .hbm, ⟨18, _⟩ => ⟨S100x32x64, .f32⟩
  | .hbm, ⟨19, _⟩ => ⟨S100x64, .f32⟩
  | .hbm, ⟨20, _⟩ => ⟨S_, .i32⟩
  | .hbm, ⟨21, _⟩ => ⟨S100x16, .i32⟩
  | .hbm, ⟨22, _⟩ => ⟨S100x16, .i1⟩
  | .hbm, ⟨23, _⟩ => ⟨S_, .i32⟩
  | .hbm, ⟨24, _⟩ => ⟨S100x16, .i32⟩
  | .hbm, ⟨25, _⟩ => ⟨S100x16, .i32⟩
  | .hbm, ⟨26, _⟩ => ⟨S100x16, .i32⟩
  | .hbm, ⟨27, _⟩ => ⟨S100x16x1, .i32⟩
  | .hbm, ⟨28, _⟩ => ⟨S8192x100x16, .f32⟩
  | .hbm, ⟨29, _⟩ => ⟨S100x8192x16, .f32⟩
  | .hbm, ⟨30, _⟩ => ⟨S100x8192x8, .f32⟩
  | .hbm, ⟨31, _⟩ => ⟨S100x1x8, .f32⟩
  | .hbm, ⟨32, _⟩ => ⟨S100x8192x8, .f32⟩
  | .hbm, ⟨33, _⟩ => ⟨S100x8192x8, .f32⟩
  | .hbm, ⟨34, _⟩ => ⟨S_, .f32⟩
  | .hbm, ⟨35, _⟩ => ⟨S100x8192x8, .f32⟩
  | .hbm, ⟨36, _⟩ => ⟨S100x8192x8, .f32⟩
  | .hbm, ⟨37, _⟩ => ⟨S100x8192x4, .f32⟩
  | .hbm, ⟨38, _⟩ => ⟨S100x1x4, .f32⟩
  | .hbm, ⟨39, _⟩ => ⟨S100x8192x4, .f32⟩
  | .hbm, ⟨40, _⟩ => ⟨S100x8192x4, .f32⟩
  | .hbm, ⟨41, _⟩ => ⟨S_, .f32⟩
  | .hbm, ⟨42, _⟩ => ⟨S100x8192x4, .f32⟩
  | .hbm, ⟨43, _⟩ => ⟨S100x8192x4, .f32⟩
  | .hbm, ⟨44, _⟩ => ⟨S100x8192x8, .f32⟩
  | .hbm, ⟨45, _⟩ => ⟨S100x1x8, .f32⟩
  | .hbm, ⟨46, _⟩ => ⟨S100x8192x8, .f32⟩
  | .hbm, ⟨47, _⟩ => ⟨S100x8192x8, .f32⟩
  | .hbm, ⟨48, _⟩ => ⟨S_, .f32⟩
  | .hbm, ⟨49, _⟩ => ⟨S100x8192x8, .f32⟩
  | .hbm, ⟨50, _⟩ => ⟨S100x8192x8, .f32⟩
  | .hbm, ⟨51, _⟩ => ⟨S100x8192x16, .f32⟩
  | .hbm, ⟨52, _⟩ => ⟨S100x1x16, .f32⟩
  | .hbm, ⟨53, _⟩ => ⟨S100x8192x16, .f32⟩
  | .hbm, ⟨54, _⟩ => ⟨S100x8192x16, .f32⟩
  | .hbm, ⟨55, _⟩ => ⟨S_, .f32⟩
  | .hbm, ⟨56, _⟩ => ⟨S100x8192x16, .f32⟩
  | .hbm, ⟨57, _⟩ => ⟨S100x8192x16, .f32⟩
  | .hbm, ⟨58, _⟩ => ⟨S100x8192x32, .f32⟩
  | .hbm, ⟨59, _⟩ => ⟨S100x1x32, .f32⟩
  | .hbm, ⟨60, _⟩ => ⟨S100x8192x32, .f32⟩
  | .hbm, ⟨61, _⟩ => ⟨S100x8192x32, .f32⟩
  | .hbm, ⟨62, _⟩ => ⟨S_, .f32⟩
  | .hbm, ⟨63, _⟩ => ⟨S100x8192x32, .f32⟩
  | .hbm, ⟨64, _⟩ => ⟨S100x8192x32, .f32⟩
  | .hbm, ⟨65, _⟩ => ⟨S100x8192x64, .f32⟩
  | .hbm, ⟨66, _⟩ => ⟨S100x1x64, .f32⟩
  | .hbm, ⟨67, _⟩ => ⟨S100x8192x64, .f32⟩
  | .hbm, ⟨68, _⟩ => ⟨S100x8192x64, .f32⟩
  | .hbm, ⟨69, _⟩ => ⟨S100x8192x16, .f32⟩
  | .hbm, ⟨70, _⟩ => ⟨S100x1x16, .f32⟩
  | .hbm, ⟨71, _⟩ => ⟨S100x8192x16, .f32⟩
  | .hbm, ⟨72, _⟩ => ⟨S100x8192x16, .f32⟩
  | .hbm, ⟨73, _⟩ => ⟨S_, .f32⟩
  | .hbm, ⟨74, _⟩ => ⟨S100x8192x16, .f32⟩
  | .hbm, ⟨75, _⟩ => ⟨S100x8192x16, .f32⟩
  | .hbm, ⟨76, _⟩ => ⟨S100x8192x32, .f32⟩
  | .hbm, ⟨77, _⟩ => ⟨S100x1x32, .f32⟩
  | .hbm, ⟨78, _⟩ => ⟨S100x8192x32, .f32⟩
  | .hbm, ⟨79, _⟩ => ⟨S100x8192x32, .f32⟩
  | .hbm, ⟨80, _⟩ => ⟨S_, .f32⟩
  | .hbm, ⟨81, _⟩ => ⟨S100x8192x32, .f32⟩
  | .hbm, ⟨82, _⟩ => ⟨S100x8192x32, .f32⟩
  | .hbm, ⟨83, _⟩ => ⟨S100x8192x64, .f32⟩
  | .hbm, ⟨84, _⟩ => ⟨S100x1x64, .f32⟩
  | .hbm, ⟨85, _⟩ => ⟨S100x8192x64, .f32⟩
  | .hbm, ⟨86, _⟩ => ⟨S100x8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call0_cst : Ref sig .tc := ⟨.hbm, 34, rfl⟩
abbrev main_call0_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_call1_cst : Ref sig .tc := ⟨.hbm, 41, rfl⟩
abbrev main_call1_v0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call2_cst : Ref sig .tc := ⟨.hbm, 48, rfl⟩
abbrev main_call2_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call3_cst : Ref sig .tc := ⟨.hbm, 55, rfl⟩
abbrev main_call3_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call4_cst : Ref sig .tc := ⟨.hbm, 62, rfl⟩
abbrev main_call4_v0 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call5_cst : Ref sig .tc := ⟨.hbm, 73, rfl⟩
abbrev main_call5_v0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call6_cst : Ref sig .tc := ⟨.hbm, 80, rfl⟩
abbrev main_call6_v0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩

abbrev nD : Nat := 1
abbrev τ : Topo := Topo.v7x

variable {F : FTy → Type} [FloatOps F]

class Facts₀ : Prop where
  bcast_S_S100x16 : S_.BroadcastsInDim S100x16 (![] : Fin 0 → Fin S100x16.rank)
  bcast_S100x16_S100x16x1_0_1 : S100x16.BroadcastsInDim S100x16x1 (![0, 1] : Fin 2 → Fin S100x16x1.rank)
  transposes_S8192x100x16_S100x8192x16_1_0_2 : S8192x100x16.Transposes [1, 0, 2] S100x8192x16
  bcast_S100x8_S100x1x8_0_2 : S100x8.BroadcastsInDim S100x1x8 (![0, 2] : Fin 2 → Fin S100x1x8.rank)
  bcast_S100x1x8_S100x8192x8_0_1_2 : S100x1x8.BroadcastsInDim S100x8192x8 (![0, 1, 2] : Fin 3 → Fin S100x8192x8.rank)
  bcast_S_S100x8192x8 : S_.BroadcastsInDim S100x8192x8 (![] : Fin 0 → Fin S100x8192x8.rank)
  bcast_S100x4_S100x1x4_0_2 : S100x4.BroadcastsInDim S100x1x4 (![0, 2] : Fin 2 → Fin S100x1x4.rank)
  bcast_S100x1x4_S100x8192x4_0_1_2 : S100x1x4.BroadcastsInDim S100x8192x4 (![0, 1, 2] : Fin 3 → Fin S100x8192x4.rank)
  bcast_S_S100x8192x4 : S_.BroadcastsInDim S100x8192x4 (![] : Fin 0 → Fin S100x8192x4.rank)
  bcast_S100x16_S100x1x16_0_2 : S100x16.BroadcastsInDim S100x1x16 (![0, 2] : Fin 2 → Fin S100x1x16.rank)
  bcast_S100x1x16_S100x8192x16_0_1_2 : S100x1x16.BroadcastsInDim S100x8192x16 (![0, 1, 2] : Fin 3 → Fin S100x8192x16.rank)
  bcast_S_S100x8192x16 : S_.BroadcastsInDim S100x8192x16 (![] : Fin 0 → Fin S100x8192x16.rank)
  bcast_S100x32_S100x1x32_0_2 : S100x32.BroadcastsInDim S100x1x32 (![0, 2] : Fin 2 → Fin S100x1x32.rank)
  bcast_S100x1x32_S100x8192x32_0_1_2 : S100x1x32.BroadcastsInDim S100x8192x32 (![0, 1, 2] : Fin 3 → Fin S100x8192x32.rank)
  bcast_S_S100x8192x32 : S_.BroadcastsInDim S100x8192x32 (![] : Fin 0 → Fin S100x8192x32.rank)
  bcast_S100x64_S100x1x64_0_2 : S100x64.BroadcastsInDim S100x1x64 (![0, 2] : Fin 2 → Fin S100x1x64.rank)
  bcast_S100x1x64_S100x8192x64_0_1_2 : S100x1x64.BroadcastsInDim S100x8192x64 (![0, 1, 2] : Fin 3 → Fin S100x8192x64.rank)
  gather_S8192x64_S100x16x1_S8192x100x16_0_1_n_n_1_2_81921_wf : GatherDims.WF S8192x64 S100x16x1 S8192x100x16 [0] [1] [] [1] [] 2 ![8192, 1]
  dot_S100x8192x16_S100x16x8_S100x8192x8_2_1_1_2_0_0_wf : DotDims.WF S100x8192x16 S100x16x8 S100x8192x8 [2] [1] [1] [2] [0] [0]
  dot_S100x8192x8_S100x8x4_S100x8192x4_2_1_1_2_0_0_wf : DotDims.WF S100x8192x8 S100x8x4 S100x8192x4 [2] [1] [1] [2] [0] [0]
  dot_S100x8192x4_S100x4x8_S100x8192x8_2_1_1_2_0_0_wf : DotDims.WF S100x8192x4 S100x4x8 S100x8192x8 [2] [1] [1] [2] [0] [0]
  dot_S100x8192x8_S100x8x16_S100x8192x16_2_1_1_2_0_0_wf : DotDims.WF S100x8192x8 S100x8x16 S100x8192x16 [2] [1] [1] [2] [0] [0]
  dot_S100x8192x16_S100x16x32_S100x8192x32_2_1_1_2_0_0_wf : DotDims.WF S100x8192x16 S100x16x32 S100x8192x32 [2] [1] [1] [2] [0] [0]
  dot_S100x8192x32_S100x32x64_S100x8192x64_2_1_1_2_0_0_wf : DotDims.WF S100x8192x32 S100x32x64 S100x8192x64 [2] [1] [1] [2] [0] [0]

variable [Facts₀]

def gather_S8192x64_S100x16x1_S8192x100x16_0_1_n_n_1_2_81921 : GatherDims S8192x64 S100x16x1 S8192x100x16 where
  offsetDims := [0]
  collapsedSliceDims := [1]
  operandBatchingDims := []
  startIndicesBatchingDims := []
  startIndexMap := [1]
  indexVectorDim := 2
  sliceSizes := ![8192, 1]
  wf := gather_S8192x64_S100x16x1_S8192x100x16_0_1_n_n_1_2_81921_wf
def dot_S100x8192x16_S100x16x8_S100x8192x8_2_1_1_2_0_0 : DotDims S100x8192x16 S100x16x8 S100x8192x8 where
  lhsContracting := [2]
  rhsContracting := [1]
  lhsNonContracting := [1]
  rhsNonContracting := [2]
  lhsBatch := [0]
  rhsBatch := [0]
  wf := dot_S100x8192x16_S100x16x8_S100x8192x8_2_1_1_2_0_0_wf
def dot_S100x8192x8_S100x8x4_S100x8192x4_2_1_1_2_0_0 : DotDims S100x8192x8 S100x8x4 S100x8192x4 where
  lhsContracting := [2]
  rhsContracting := [1]
  lhsNonContracting := [1]
  rhsNonContracting := [2]
  lhsBatch := [0]
  rhsBatch := [0]
  wf := dot_S100x8192x8_S100x8x4_S100x8192x4_2_1_1_2_0_0_wf
def dot_S100x8192x4_S100x4x8_S100x8192x8_2_1_1_2_0_0 : DotDims S100x8192x4 S100x4x8 S100x8192x8 where
  lhsContracting := [2]
  rhsContracting := [1]
  lhsNonContracting := [1]
  rhsNonContracting := [2]
  lhsBatch := [0]
  rhsBatch := [0]
  wf := dot_S100x8192x4_S100x4x8_S100x8192x8_2_1_1_2_0_0_wf
def dot_S100x8192x8_S100x8x16_S100x8192x16_2_1_1_2_0_0 : DotDims S100x8192x8 S100x8x16 S100x8192x16 where
  lhsContracting := [2]
  rhsContracting := [1]
  lhsNonContracting := [1]
  rhsNonContracting := [2]
  lhsBatch := [0]
  rhsBatch := [0]
  wf := dot_S100x8192x8_S100x8x16_S100x8192x16_2_1_1_2_0_0_wf
def dot_S100x8192x16_S100x16x32_S100x8192x32_2_1_1_2_0_0 : DotDims S100x8192x16 S100x16x32 S100x8192x32 where
  lhsContracting := [2]
  rhsContracting := [1]
  lhsNonContracting := [1]
  rhsNonContracting := [2]
  lhsBatch := [0]
  rhsBatch := [0]
  wf := dot_S100x8192x16_S100x16x32_S100x8192x32_2_1_1_2_0_0_wf
def dot_S100x8192x32_S100x32x64_S100x8192x64_2_1_1_2_0_0 : DotDims S100x8192x32 S100x32x64 S100x8192x64 where
  lhsContracting := [2]
  rhsContracting := [1]
  lhsNonContracting := [1]
  rhsNonContracting := [2]
  lhsBatch := [0]
  rhsBatch := [0]
  wf := dot_S100x8192x32_S100x32x64_S100x8192x64_2_1_1_2_0_0_wf

class Facts : Prop extends Facts₀ where

variable [Facts]
-- ==== Proof.EntryK.lean ====
import proofs.«417456_j29695403885050_3_alg».proof.Proof.Gen.Kernel.Launch

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ)

/-- Buffer b of core c once the host operations before the region have run. -/
abbrev V (c : Dev nD) (b : Ref sig .tc) : Buf (Elt F) ((c : Thread nD τ).loc b) :=
  StableHlo.after hostOps0 (fun b => m (c, b)) b

end Cert.Kernel.Hand

end
-- ==== Proof.FrameK.lean ====
import proofs.«417456_j29695403885050_3_alg».proof.Proof.EntryK
import proofs.«417456_j29695403885050_3_alg».proof.Proof.Gen.Kernel.Skeleton
import proofs.«417456_j29695403885050_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_facts : (hostOps0 : List (HloOp τ sig (Elt F))).Forall fun op =>
    op.fresh = ∅ ∧ ∃ y : Ref sig .tc, op.writes = {Proc.devRef .tc y} ∧ 20 ≤ y.idx.val := by
  repeat (refine ⟨⟨rfl, _, rfl, by decide⟩, ?_⟩)
  exact ⟨rfl, _, rfl, by decide⟩

theorem hmain (𝒱₀ : Variants) : Pipeline.HMain (Ix := Unit) (Name := ℕ) (U := UR sig nD τ) (Lvl := ℕ) cfgs 0 defs₀ 𝒱₀ m (main (F := F)) (V m) := by
  have h := Pipeline.hmain_prefixes (Ix := Unit) (Name := ℕ) (U := UR sig nD τ) (Lvl := ℕ) cfgs 0 defs₀ 𝒱₀ m (main (F := F)) [hostOps0]
    (by simp only [List.Forall]; exact hostOps0_sub) (by simp only [List.Forall]; exact (hostOps0_facts (F := F)).imp fun _ h => h.1) main_chain
  simpa only [List.flatten_cons, List.flatten_nil, List.append_nil] using h

/-- No host operation writes any of the first twenty references, so the region finds them as launched. -/
theorem V_keeps (c : Dev nD) (r : Ref sig .tc) (hr : r.idx.val < 20) : V m c r = m ((c : Thread nD τ).loc r) :=
  StableHlo.after_of_forall_not_mem (b := Proc.devRef .tc r) _ _ (fun op hop hb => by
    obtain ⟨-, y, hy, h20⟩ := List.forall_iff_forall_mem.mp (hostOps0_facts (F := F)) op hop
    rw [hy, Finset.mem_singleton] at hb
    have e := Proc.devRef_injective _ hb
    subst e
    omega)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem hz2 : (![0, 0] : Fin 2 → Nat) = fun _ => 0 := funext fun a => by fin_cases a <;> rfl
theorem hz3 : (![0, 0, 0] : Fin 3 → Nat) = fun _ => 0 := funext fun a => by fin_cases a <;> rfl

abbrev rW_S2048x64 : Rect S2048x64 := Rect.unit (s := S2048x64) ![0, 0] S2048x64.size inb_S2048x64_S2048x64_0_0
abbrev rW_S1x256x32 : Rect S1x256x32 := Rect.unit (s := S1x256x32) ![0, 0, 0] S1x256x32.size inb_S1x256x32_S1x256x32_0_0_0
abbrev rW_S1x1x32 : Rect S1x1x32 := Rect.unit (s := S1x1x32) ![0, 0, 0] S1x1x32.size inb_S1x1x32_S1x1x32_0_0_0
abbrev rW_S1x32x16 : Rect S1x32x16 := Rect.unit (s := S1x32x16) ![0, 0, 0] S1x32x16.size inb_S1x32x16_S1x32x16_0_0_0
abbrev rW_S1x1x16 : Rect S1x1x16 := Rect.unit (s := S1x1x16) ![0, 0, 0] S1x1x16.size inb_S1x1x16_S1x1x16_0_0_0
abbrev rW_S1x16x32 : Rect S1x16x32 := Rect.unit (s := S1x16x32) ![0, 0, 0] S1x16x32.size inb_S1x16x32_S1x16x32_0_0_0
abbrev rW_S1x32x128 : Rect S1x32x128 := Rect.unit (s := S1x32x128) ![0, 0, 0] S1x32x128.size inb_S1x32x128_S1x32x128_0_0_0
abbrev rW_S1x1x128 : Rect S1x1x128 := Rect.unit (s := S1x1x128) ![0, 0, 0] S1x1x128.size inb_S1x1x128_S1x1x128_0_0_0
abbrev rW_S1x128x256 : Rect S1x128x256 := Rect.unit (s := S1x128x256) ![0, 0, 0] S1x128x256.size inb_S1x128x256_S1x128x256_0_0_0
abbrev rW_S1x1x256 : Rect S1x1x256 := Rect.unit (s := S1x1x256) ![0, 0, 0] S1x1x256.size inb_S1x1x256_S1x1x256_0_0_0
abbrev rW_S1x256x512 : Rect S1x256x512 := Rect.unit (s := S1x256x512) ![0, 0, 0] S1x256x512.size inb_S1x256x512_S1x256x512_0_0_0
abbrev rW_S1x1x512 : Rect S1x1x512 := Rect.unit (s := S1x1x512) ![0, 0, 0] S1x1x512.size inb_S1x1x512_S1x1x512_0_0_0
abbrev rW_S4x2048x64 : Rect S4x2048x64 := Rect.unit (s := S4x2048x64) ![0, 0, 0] S4x2048x64.size inb_S4x2048x64_S4x2048x64_0_0_0

section
variable (x0 : Vec F S2048x64 .f32) (x1 : Vec F S1x256x32 .bf16) (x2 : Vec F S1x1x32 .f32) (x3 : Vec F S1x32x16 .bf16) (x4 : Vec F S1x1x16 .f32) (x5 : Vec F S1x16x32 .bf16) (x6 : Vec F S1x1x32 .f32) (x7 : Vec F S1x32x128 .bf16) (x8 : Vec F S1x1x128 .f32) (x9 : Vec F S1x128x256 .bf16) (x10 : Vec F S1x1x256 .f32) (x11 : Vec F S1x256x512 .bf16) (x12 : Vec F S1x1x512 .f32)
  (P : Vec F S2048x64 .f32 → Vec F S1x256x32 .bf16 → Vec F S1x1x32 .f32 → Vec F S1x32x16 .bf16 → Vec F S1x1x16 .f32 → Vec F S1x16x32 .bf16 → Vec F S1x1x32 .f32 → Vec F S1x32x128 .bf16 → Vec F S1x1x128 .f32 → Vec F S1x128x256 .bf16 → Vec F S1x1x256 .f32 → Vec F S1x256x512 .bf16 → Vec F S1x1x512 .f32 → Vec F S4x2048x64 .f32)

def pay13 : Vec F S4x2048x64 .f32 :=
  k0_pay1 (k0_pay5 (k0_pay3 x0 x1 x2 x3 x4 x5 x6) x7 x8 x9 x10 x11 x12) (k0_pay6 (k0_pay3 x0 x1 x2 x3 x4 x5 x6) x7 x8 x9 x10 x11 x12) (k0_pay7 (k0_pay3 x0 x1 x2 x3 x4 x5 x6) x7 x8 x9 x10 x11 x12) (k0_pay12 (k0_pay3 x0 x1 x2 x3 x4 x5 x6) x7 x8 x9 x10 x11 x12)

def pay14 : Vec F S4x2048x64 .f32 :=
  k0_pay2 (k0_pay8 (k0_pay3 x0 x1 x2 x3 x4 x5 x6) x7 x8 x9 x10 x11 x12) (k0_pay9 (k0_pay3 x0 x1 x2 x3 x4 x5 x6) x7 x8 x9 x10 x11 x12) (k0_pay10 (k0_pay3 x0 x1 x2 x3 x4 x5 x6) x7 x8 x9 x10 x11 x12) (k0_pay11 (k0_pay3 x0 x1 x2 x3 x4 x5 x6) x7 x8 x9 x10 x11 x12)

/-- One store through the whole rectangle of a payload `P` of loads through the whole rectangles. -/
def stored : Vec F S4x2048x64 .f32 :=
  View.canon [⟨rW_S4x2048x64, P (View.ld x0 rW_S2048x64) (View.ld x1 rW_S1x256x32) (View.ld x2 rW_S1x1x32) (View.ld x3 rW_S1x32x16) (View.ld x4 rW_S1x1x16) (View.ld x5 rW_S1x16x32) (View.ld x6 rW_S1x1x32) (View.ld x7 rW_S1x32x128) (View.ld x8 rW_S1x1x128) (View.ld x9 rW_S1x128x256) (View.ld x10 rW_S1x1x256) (View.ld x11 rW_S1x256x512) (View.ld x12 rW_S1x1x512)⟩]

/-- A load through the whole rectangle reads the contents and one store through it leaves its payload. -/
theorem stored_eq : stored x0 x1 x2 x3 x4 x5 x6 x7 x8 x9 x10 x11 x12 P = P x0 x1 x2 x3 x4 x5 x6 x7 x8 x9 x10 x11 x12 := by
  unfold stored
  rw [View.canon_unit_zero (S := S4x2048x64) hz3 inb_S4x2048x64_S4x2048x64_0_0_0]
  simp only [View.ld_unit_zero (S := S2048x64) hz2 inb_S2048x64_S2048x64_0_0,
    View.ld_unit_zero (S := S1x256x32) hz3 inb_S1x256x32_S1x256x32_0_0_0,
    View.ld_unit_zero (S := S1x1x32) hz3 inb_S1x1x32_S1x1x32_0_0_0,
    View.ld_unit_zero (S := S1x32x16) hz3 inb_S1x32x16_S1x32x16_0_0_0,
    View.ld_unit_zero (S := S1x1x16) hz3 inb_S1x1x16_S1x1x16_0_0_0,
    View.ld_unit_zero (S := S1x16x32) hz3 inb_S1x16x32_S1x16x32_0_0_0,
    View.ld_unit_zero (S := S1x32x128) hz3 inb_S1x32x128_S1x32x128_0_0_0,
    View.ld_unit_zero (S := S1x1x128) hz3 inb_S1x1x128_S1x1x128_0_0_0,
    View.ld_unit_zero (S := S1x128x256) hz3 inb_S1x128x256_S1x128x256_0_0_0,
    View.ld_unit_zero (S := S1x1x256) hz3 inb_S1x1x256_S1x1x256_0_0_0,
    View.ld_unit_zero (S := S1x256x512) hz3 inb_S1x256x512_S1x256x512_0_0_0,
    View.ld_unit_zero (S := S1x1x512) hz3 inb_S1x1x512_S1x1x512_0_0_0]

def out0_13 : Vec F S4x2048x64 .f32 :=
  View.canon [⟨rW_S4x2048x64, k0_pay1 (k0_pay5 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay6 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay7 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay12 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512))⟩]

def out0_14 : Vec F S4x2048x64 .f32 :=
  View.canon [⟨rW_S4x2048x64, k0_pay2 (k0_pay8 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay9 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay10 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay11 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512))⟩]

theorem out0_13_eq : out0_13 x0 x1 x2 x3 x4 x5 x6 x7 x8 x9 x10 x11 x12
    = k0_pay1 (k0_pay5 (k0_pay3 x0 x1 x2 x3 x4 x5 x6) x7 x8 x9 x10 x11 x12) (k0_pay6 (k0_pay3 x0 x1 x2 x3 x4 x5 x6) x7 x8 x9 x10 x11 x12) (k0_pay7 (k0_pay3 x0 x1 x2 x3 x4 x5 x6) x7 x8 x9 x10 x11 x12) (k0_pay12 (k0_pay3 x0 x1 x2 x3 x4 x5 x6) x7 x8 x9 x10 x11 x12) :=
  stored_eq x0 x1 x2 x3 x4 x5 x6 x7 x8 x9 x10 x11 x12 pay13

theorem out0_14_eq : out0_14 x0 x1 x2 x3 x4 x5 x6 x7 x8 x9 x10 x11 x12
    = k0_pay2 (k0_pay8 (k0_pay3 x0 x1 x2 x3 x4 x5 x6) x7 x8 x9 x10 x11 x12) (k0_pay9 (k0_pay3 x0 x1 x2 x3 x4 x5 x6) x7 x8 x9 x10 x11 x12) (k0_pay10 (k0_pay3 x0 x1 x2 x3 x4 x5 x6) x7 x8 x9 x10 x11 x12) (k0_pay11 (k0_pay3 x0 x1 x2 x3 x4 x5 x6) x7 x8 x9 x10 x11 x12) :=
  stored_eq x0 x1 x2 x3 x4 x5 x6 x7 x8 x9 x10 x11 x12 pay14

theorem cover0_13 (p0 : Vec F S4x2048x64 .f32) (y : S4x2048x64.Idx) :
    ∃ pc ∈ ([⟨rW_S4x2048x64, p0⟩] : List (View.Piece (Elt F) S4x2048x64 .f32)), y ∈ pc.1.set :=
  ⟨_, List.mem_singleton_self _, View.mem_set_unit_zero hz3 inb_S4x2048x64_S4x2048x64_0_0_0 y⟩

set_option maxHeartbeats 4000000 in
theorem sound_kernel (c : Dev nD) (E : Set ℕ) (i : grid0.Coords) (a0 : Memref sig .tc .vmem S2048x64 .f32) (ha0 : a0.IsWhole) (a1 : Memref sig .tc .vmem S1x256x32 .bf16) (ha1 : a1.IsWhole) (a2 : Memref sig .tc .vmem S1x1x32 .f32) (ha2 : a2.IsWhole) (a3 : Memref sig .tc .vmem S1x32x16 .bf16) (ha3 : a3.IsWhole) (a4 : Memref sig .tc .vmem S1x1x16 .f32) (ha4 : a4.IsWhole) (a5 : Memref sig .tc .vmem S1x16x32 .bf16) (ha5 : a5.IsWhole) (a6 : Memref sig .tc .vmem S1x1x32 .f32) (ha6 : a6.IsWhole) (a7 : Memref sig .tc .vmem S1x32x128 .bf16) (ha7 : a7.IsWhole) (a8 : Memref sig .tc .vmem S1x1x128 .f32) (ha8 : a8.IsWhole) (a9 : Memref sig .tc .vmem S1x128x256 .bf16) (ha9 : a9.IsWhole) (a10 : Memref sig .tc .vmem S1x1x256 .f32) (ha10 : a10.IsWhole) (a11 : Memref sig .tc .vmem S1x256x512 .bf16) (ha11 : a11.IsWhole) (a12 : Memref sig .tc .vmem S1x1x512 .f32) (ha12 : a12.IsWhole) (a13 : Memref sig .tc .vmem S4x2048x64 .f32) (ha13 : a13.IsWhole) (a14 : Memref sig .tc .vmem S4x2048x64 .f32) (ha14 : a14.IsWhole)
    (K : PUnit → sProp 𝕄) :
    iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d))
        ∗ (iprop(owns (c : Thread nD τ) a13 fullShare (out0_13 x0 x1 x2 x3 x4 x5 x6 x7 x8 x9 x10 x11 x12) ∗ owns (c : Thread nD τ) a14 fullShare (out0_14 x0 x1 x2 x3 x4 x5 x6 x7 x8 x9 x10 x11 x12) ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12) -∗ K ⟨⟩))
      ⊢ wp frame (wpE (defs₀ (F := F)) Variants.none c none) E (cc0__moe_kernel i a0 ha0 a1 ha1 a2 ha2 a3 ha3 a4 ha4 a5 ha5 a6 ha6 a7 ha7 a8 ha8 a9 ha9 a10 ha10 a11 ha11 a12 ha12 a13 ha13 a14 ha14) K := by
  simp only [cc0__moe_kernel_eq_skeleton]; unfold cc0__moe_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩⟩, Hk⟩
  subst hf0 hf1 hf2 hf3 hf4 hf5 hf6 hf7 hf8 hf9 hf10 hf11 hf12
  sl_exec
  sl_step
  iapply Hk
  isplitl [H13]
  · iexists _; isplitr; swap; · iexact H13
    ipureintro; exact View.read_writes_eq_canon _ _ _ (cover0_13 _)
  isplitl [H14]
  · iexists _; isplitr; swap; · iexact H14
    ipureintro; exact View.read_writes_eq_canon _ _ _ (cover0_13 _)
  sl_close

end

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t
    ∧ (dats m 0 c).after 5 t = iblk m c 5 t ∧ (dats m 0 c).after 6 t = iblk m c 6 t ∧ (dats m 0 c).after 7 t = iblk m c 7 t ∧ (dats m 0 c).after 8 t = iblk m c 8 t
    ∧ (dats m 0 c).after 9 t = iblk m c 9 t ∧ (dats m 0 c).after 10 t = iblk m c 10 t ∧ (dats m 0 c).after 11 t = iblk m c 11 t ∧ (dats m 0 c).after 12 t = iblk m c 12 t := by
  and_intros <;> dsimp only [dats]

theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_fst (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t) ∧ (∀ d, (dats m 0 c).before 6 t d = iblk m c 6 t) := by
  and_intros <;> exact fun d => (Dat.before_in_eq_fetched _ _ (by rfl) (fun _ => by rfl) (fun _ _ _ => by rfl)
    (fun _ => by unfold Dat.blockOf; dsimp only [dats]; try rfl) t d).trans (by unfold Dat.fetched Dat.blockOf; dsimp only [dats]; try rfl)

theorem before_snd (c : Dev nD) (t : Fin cfg0.N) :
    (∀ d, (dats m 0 c).before 7 t d = iblk m c 7 t) ∧ (∀ d, (dats m 0 c).before 8 t d = iblk m c 8 t) ∧ (∀ d, (dats m 0 c).before 9 t d = iblk m c 9 t)
    ∧ (∀ d, (dats m 0 c).before 10 t d = iblk m c 10 t) ∧ (∀ d, (dats m 0 c).before 11 t d = iblk m c 11 t) ∧ (∀ d, (dats m 0 c).before 12 t d = iblk m c 12 t) := by
  and_intros <;> exact fun d => (Dat.before_in_eq_fetched _ _ (by rfl) (fun _ => by rfl) (fun _ _ _ => by rfl)
    (fun _ => by unfold Dat.blockOf; dsimp only [dats]; try rfl) t d).trans (by unfold Dat.fetched Dat.blockOf; dsimp only [dats]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_fst m c t, before_snd m c t, after_in m c t]
  rw [show (dats m 0 c).Φ t.succ = (dats m 0 c).Φ t.castSucc from rfl,
    show (dats m 0 c).owesAt () t.succ = (dats m 0 c).owesAt () t.castSucc from rfl, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) c Set.univ _ _ _ _ _ _ _ _ _ _ _ _ _ _ _ _ _ _ _ _ _ _ _ _ _ _ _ _ _ _ _ _)
  isplitr [HΦ Ho]
  · sl_close
  iintro ⟨H13, H14, H0, H1, H2, H3, H4, H5, H6, H7, H8, H9, H10, H11, H12⟩
  isplitl [HΦ]; · iexact HΦ
  isplitl [Ho]; · iexact Ho
  sl_close

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Each argument ends as it was launched: nothing writes it. -/
theorem run_named : θ_run defs (onTc (τ := τ) (main (F := F))) ⟨m, fun _ => 0, ρ⟩ fun r => ∀ c : Dev nD,
      r.2.mem ((c.tc : Thread nD τ).loc main_v206_0) = (dats m 0 c).arrAt 13 cfg0.N
      ∧ r.2.mem ((c.tc : Thread nD τ).loc main_v206_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => by
    have k (b : Ref sig .tc) (hb : b.idx.val < 20 ∧ b.isScoped = false ∧ ∀ w, (spec0 w).arr.view.ref ≠ b) :
        r.2.mem ((c.tc : Thread nD τ).loc b) = m ((c.tc : Thread nD τ).loc b) :=
      ((h c).2 b (Pipeline.mem_restRefs_of b hb.2.1 hb.2.2)).trans (V_keeps m c b hb.1)
    refine ⟨(h c).1 13, (h c).1 14, ((h c).1 0).trans (((dats m 0 c).arrAt_in 0 rfl _).trans ((A_eq m c 0).trans (V_keeps m c main_arg0 (by decide)))), ?_⟩
    and_intros <;> exact k _ (by decide)) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2.2) (run_named m ρ)

end Cert.Kernel.Hand

end
-- ==== Proof.EntryKI.lean ====
import proofs.«417456_j29695403885050_3_alg».proof.Proof.Gen.KernelIdeal.Launch

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-- Buffer b of core c once the host operations before the region have run. -/
abbrev V (c : Dev nD) (b : Ref sig .tc) : Buf (Elt F) ((c : Thread nD τ).loc b) :=
  StableHlo.after hostOps0 (fun b => m (c, b)) b

end Cert.KernelIdeal.Hand

end
-- ==== Proof.FrameKI.lean ====
import proofs.«417456_j29695403885050_3_alg».proof.Proof.EntryKI
import proofs.«417456_j29695403885050_3_alg».proof.Proof.Gen.KernelIdeal.Skeleton
import proofs.«417456_j29695403885050_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_facts : (hostOps0 : List (HloOp τ sig (Elt F))).Forall fun op =>
    op.fresh = ∅ ∧ ∃ y : Ref sig .tc, op.writes = {Proc.devRef .tc y} ∧ 20 ≤ y.idx.val := by
  repeat (refine ⟨⟨rfl, _, rfl, by decide⟩, ?_⟩)
  exact ⟨rfl, _, rfl, by decide⟩

theorem hmain (𝒱₀ : Variants) : Pipeline.HMain (Ix := Unit) (Name := ℕ) (U := UR sig nD τ) (Lvl := ℕ) cfgs 0 defs₀ 𝒱₀ m (main (F := F)) (V m) := by
  have h := Pipeline.hmain_prefixes (Ix := Unit) (Name := ℕ) (U := UR sig nD τ) (Lvl := ℕ) cfgs 0 defs₀ 𝒱₀ m (main (F := F)) [hostOps0]
    (by simp only [List.Forall]; exact hostOps0_sub) (by simp only [List.Forall]; exact (hostOps0_facts (F := F)).imp fun _ h => h.1) main_chain
  simpa only [List.flatten_cons, List.flatten_nil, List.append_nil] using h

/-- No host operation writes any of the first twenty references, so the region finds them as launched. -/
theorem V_keeps (c : Dev nD) (r : Ref sig .tc) (hr : r.idx.val < 20) : V m c r = m ((c : Thread nD τ).loc r) :=
  StableHlo.after_of_forall_not_mem (b := Proc.devRef .tc r) _ _ (fun op hop hb => by
    obtain ⟨-, y, hy, h20⟩ := List.forall_iff_forall_mem.mp (hostOps0_facts (F := F)) op hop
    rw [hy, Finset.mem_singleton] at hb
    have e := Proc.devRef_injective _ hb
    subst e
    omega)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem hz2 : (![0, 0] : Fin 2 → Nat) = fun _ => 0 := funext fun a => by fin_cases a <;> rfl
theorem hz3 : (![0, 0, 0] : Fin 3 → Nat) = fun _ => 0 := funext fun a => by fin_cases a <;> rfl

abbrev rW_S2048x64 : Rect S2048x64 := Rect.unit (s := S2048x64) ![0, 0] S2048x64.size inb_S2048x64_S2048x64_0_0
abbrev rW_S1x256x32 : Rect S1x256x32 := Rect.unit (s := S1x256x32) ![0, 0, 0] S1x256x32.size inb_S1x256x32_S1x256x32_0_0_0
abbrev rW_S1x1x32 : Rect S1x1x32 := Rect.unit (s := S1x1x32) ![0, 0, 0] S1x1x32.size inb_S1x1x32_S1x1x32_0_0_0
abbrev rW_S1x32x16 : Rect S1x32x16 := Rect.unit (s := S1x32x16) ![0, 0, 0] S1x32x16.size inb_S1x32x16_S1x32x16_0_0_0
abbrev rW_S1x1x16 : Rect S1x1x16 := Rect.unit (s := S1x1x16) ![0, 0, 0] S1x1x16.size inb_S1x1x16_S1x1x16_0_0_0
abbrev rW_S1x16x32 : Rect S1x16x32 := Rect.unit (s := S1x16x32) ![0, 0, 0] S1x16x32.size inb_S1x16x32_S1x16x32_0_0_0
abbrev rW_S1x32x128 : Rect S1x32x128 := Rect.unit (s := S1x32x128) ![0, 0, 0] S1x32x128.size inb_S1x32x128_S1x32x128_0_0_0
abbrev rW_S1x1x128 : Rect S1x1x128 := Rect.unit (s := S1x1x128) ![0, 0, 0] S1x1x128.size inb_S1x1x128_S1x1x128_0_0_0
abbrev rW_S1x128x256 : Rect S1x128x256 := Rect.unit (s := S1x128x256) ![0, 0, 0] S1x128x256.size inb_S1x128x256_S1x128x256_0_0_0
abbrev rW_S1x1x256 : Rect S1x1x256 := Rect.unit (s := S1x1x256) ![0, 0, 0] S1x1x256.size inb_S1x1x256_S1x1x256_0_0_0
abbrev rW_S1x256x512 : Rect S1x256x512 := Rect.unit (s := S1x256x512) ![0, 0, 0] S1x256x512.size inb_S1x256x512_S1x256x512_0_0_0
abbrev rW_S1x1x512 : Rect S1x1x512 := Rect.unit (s := S1x1x512) ![0, 0, 0] S1x1x512.size inb_S1x1x512_S1x1x512_0_0_0
abbrev rW_S4x2048x64 : Rect S4x2048x64 := Rect.unit (s := S4x2048x64) ![0, 0, 0] S4x2048x64.size inb_S4x2048x64_S4x2048x64_0_0_0

section
variable (x0 : Vec F S2048x64 .f32) (x1 : Vec F S1x256x32 .bf16) (x2 : Vec F S1x1x32 .f32) (x3 : Vec F S1x32x16 .bf16) (x4 : Vec F S1x1x16 .f32) (x5 : Vec F S1x16x32 .bf16) (x6 : Vec F S1x1x32 .f32) (x7 : Vec F S1x32x128 .bf16) (x8 : Vec F S1x1x128 .f32) (x9 : Vec F S1x128x256 .bf16) (x10 : Vec F S1x1x256 .f32) (x11 : Vec F S1x256x512 .bf16) (x12 : Vec F S1x1x512 .f32)
  (P : Vec F S2048x64 .f32 → Vec F S1x256x32 .bf16 → Vec F S1x1x32 .f32 → Vec F S1x32x16 .bf16 → Vec F S1x1x16 .f32 → Vec F S1x16x32 .bf16 → Vec F S1x1x32 .f32 → Vec F S1x32x128 .bf16 → Vec F S1x1x128 .f32 → Vec F S1x128x256 .bf16 → Vec F S1x1x256 .f32 → Vec F S1x256x512 .bf16 → Vec F S1x1x512 .f32 → Vec F S4x2048x64 .f32)

def pay13 : Vec F S4x2048x64 .f32 :=
  k0_pay1 (k0_pay5 (k0_pay3 x0 x1 x2 x3 x4 x5 x6) x7 x8 x9 x10 x11 x12) (k0_pay6 (k0_pay3 x0 x1 x2 x3 x4 x5 x6) x7 x8 x9 x10 x11 x12) (k0_pay7 (k0_pay3 x0 x1 x2 x3 x4 x5 x6) x7 x8 x9 x10 x11 x12) (k0_pay12 (k0_pay3 x0 x1 x2 x3 x4 x5 x6) x7 x8 x9 x10 x11 x12)

def pay14 : Vec F S4x2048x64 .f32 :=
  k0_pay2 (k0_pay8 (k0_pay3 x0 x1 x2 x3 x4 x5 x6) x7 x8 x9 x10 x11 x12) (k0_pay9 (k0_pay3 x0 x1 x2 x3 x4 x5 x6) x7 x8 x9 x10 x11 x12) (k0_pay10 (k0_pay3 x0 x1 x2 x3 x4 x5 x6) x7 x8 x9 x10 x11 x12) (k0_pay11 (k0_pay3 x0 x1 x2 x3 x4 x5 x6) x7 x8 x9 x10 x11 x12)

/-- One store through the whole rectangle of a payload `P` of loads through the whole rectangles. -/
def stored : Vec F S4x2048x64 .f32 :=
  View.canon [⟨rW_S4x2048x64, P (View.ld x0 rW_S2048x64) (View.ld x1 rW_S1x256x32) (View.ld x2 rW_S1x1x32) (View.ld x3 rW_S1x32x16) (View.ld x4 rW_S1x1x16) (View.ld x5 rW_S1x16x32) (View.ld x6 rW_S1x1x32) (View.ld x7 rW_S1x32x128) (View.ld x8 rW_S1x1x128) (View.ld x9 rW_S1x128x256) (View.ld x10 rW_S1x1x256) (View.ld x11 rW_S1x256x512) (View.ld x12 rW_S1x1x512)⟩]

/-- A load through the whole rectangle reads the contents and one store through it leaves its payload. -/
theorem stored_eq : stored x0 x1 x2 x3 x4 x5 x6 x7 x8 x9 x10 x11 x12 P = P x0 x1 x2 x3 x4 x5 x6 x7 x8 x9 x10 x11 x12 := by
  unfold stored
  rw [View.canon_unit_zero (S := S4x2048x64) hz3 inb_S4x2048x64_S4x2048x64_0_0_0]
  simp only [View.ld_unit_zero (S := S2048x64) hz2 inb_S2048x64_S2048x64_0_0,
    View.ld_unit_zero (S := S1x256x32) hz3 inb_S1x256x32_S1x256x32_0_0_0,
    View.ld_unit_zero (S := S1x1x32) hz3 inb_S1x1x32_S1x1x32_0_0_0,
    View.ld_unit_zero (S := S1x32x16) hz3 inb_S1x32x16_S1x32x16_0_0_0,
    View.ld_unit_zero (S := S1x1x16) hz3 inb_S1x1x16_S1x1x16_0_0_0,
    View.ld_unit_zero (S := S1x16x32) hz3 inb_S1x16x32_S1x16x32_0_0_0,
    View.ld_unit_zero (S := S1x32x128) hz3 inb_S1x32x128_S1x32x128_0_0_0,
    View.ld_unit_zero (S := S1x1x128) hz3 inb_S1x1x128_S1x1x128_0_0_0,
    View.ld_unit_zero (S := S1x128x256) hz3 inb_S1x128x256_S1x128x256_0_0_0,
    View.ld_unit_zero (S := S1x1x256) hz3 inb_S1x1x256_S1x1x256_0_0_0,
    View.ld_unit_zero (S := S1x256x512) hz3 inb_S1x256x512_S1x256x512_0_0_0,
    View.ld_unit_zero (S := S1x1x512) hz3 inb_S1x1x512_S1x1x512_0_0_0]

def out0_13 : Vec F S4x2048x64 .f32 :=
  View.canon [⟨rW_S4x2048x64, k0_pay1 (k0_pay5 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay6 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay7 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay12 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512))⟩]

def out0_14 : Vec F S4x2048x64 .f32 :=
  View.canon [⟨rW_S4x2048x64, k0_pay2 (k0_pay8 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay9 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay10 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512)) (k0_pay11 (k0_pay3 (View.ld x0 rW_S2048x64) (View.ld x1 rW_S1x256x32) (View.ld x2 rW_S1x1x32) (View.ld x3 rW_S1x32x16) (View.ld x4 rW_S1x1x16) (View.ld x5 rW_S1x16x32) (View.ld x6 rW_S1x1x32)) (View.ld x7 rW_S1x32x128) (View.ld x8 rW_S1x1x128) (View.ld x9 rW_S1x128x256) (View.ld x10 rW_S1x1x256) (View.ld x11 rW_S1x256x512) (View.ld x12 rW_S1x1x512))⟩]

theorem out0_13_eq : out0_13 x0 x1 x2 x3 x4 x5 x6 x7 x8 x9 x10 x11 x12
    = k0_pay1 (k0_pay5 (k0_pay3 x0 x1 x2 x3 x4 x5 x6) x7 x8 x9 x10 x11 x12) (k0_pay6 (k0_pay3 x0 x1 x2 x3 x4 x5 x6) x7 x8 x9 x10 x11 x12) (k0_pay7 (k0_pay3 x0 x1 x2 x3 x4 x5 x6) x7 x8 x9 x10 x11 x12) (k0_pay12 (k0_pay3 x0 x1 x2 x3 x4 x5 x6) x7 x8 x9 x10 x11 x12) :=
  stored_eq x0 x1 x2 x3 x4 x5 x6 x7 x8 x9 x10 x11 x12 pay13

theorem out0_14_eq : out0_14 x0 x1 x2 x3 x4 x5 x6 x7 x8 x9 x10 x11 x12
    = k0_pay2 (k0_pay8 (k0_pay3 x0 x1 x2 x3 x4 x5 x6) x7 x8 x9 x10 x11 x12) (k0_pay9 (k0_pay3 x0 x1 x2 x3 x4 x5 x6) x7 x8 x9 x10 x11 x12) (k0_pay10 (k0_pay3 x0 x1 x2 x3 x4 x5 x6) x7 x8 x9 x10 x11 x12) (k0_pay11 (k0_pay3 x0 x1 x2 x3 x4 x5 x6) x7 x8 x9 x10 x11 x12) :=
  stored_eq x0 x1 x2 x3 x4 x5 x6 x7 x8 x9 x10 x11 x12 pay14

theorem cover0_13 (p0 : Vec F S4x2048x64 .f32) (y : S4x2048x64.Idx) :
    ∃ pc ∈ ([⟨rW_S4x2048x64, p0⟩] : List (View.Piece (Elt F) S4x2048x64 .f32)), y ∈ pc.1.set :=
  ⟨_, List.mem_singleton_self _, View.mem_set_unit_zero hz3 inb_S4x2048x64_S4x2048x64_0_0_0 y⟩

set_option maxHeartbeats 4000000 in
theorem sound_kernel (c : Dev nD) (E : Set ℕ) (i : grid0.Coords) (a0 : Memref sig .tc .vmem S2048x64 .f32) (ha0 : a0.IsWhole) (a1 : Memref sig .tc .vmem S1x256x32 .bf16) (ha1 : a1.IsWhole) (a2 : Memref sig .tc .vmem S1x1x32 .f32) (ha2 : a2.IsWhole) (a3 : Memref sig .tc .vmem S1x32x16 .bf16) (ha3 : a3.IsWhole) (a4 : Memref sig .tc .vmem S1x1x16 .f32) (ha4 : a4.IsWhole) (a5 : Memref sig .tc .vmem S1x16x32 .bf16) (ha5 : a5.IsWhole) (a6 : Memref sig .tc .vmem S1x1x32 .f32) (ha6 : a6.IsWhole) (a7 : Memref sig .tc .vmem S1x32x128 .bf16) (ha7 : a7.IsWhole) (a8 : Memref sig .tc .vmem S1x1x128 .f32) (ha8 : a8.IsWhole) (a9 : Memref sig .tc .vmem S1x128x256 .bf16) (ha9 : a9.IsWhole) (a10 : Memref sig .tc .vmem S1x1x256 .f32) (ha10 : a10.IsWhole) (a11 : Memref sig .tc .vmem S1x256x512 .bf16) (ha11 : a11.IsWhole) (a12 : Memref sig .tc .vmem S1x1x512 .f32) (ha12 : a12.IsWhole) (a13 : Memref sig .tc .vmem S4x2048x64 .f32) (ha13 : a13.IsWhole) (a14 : Memref sig .tc .vmem S4x2048x64 .f32) (ha14 : a14.IsWhole)
    (K : PUnit → sProp 𝕄) :
    iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d))
        ∗ (iprop(owns (c : Thread nD τ) a13 fullShare (out0_13 x0 x1 x2 x3 x4 x5 x6 x7 x8 x9 x10 x11 x12) ∗ owns (c : Thread nD τ) a14 fullShare (out0_14 x0 x1 x2 x3 x4 x5 x6 x7 x8 x9 x10 x11 x12) ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12) -∗ K ⟨⟩))
      ⊢ wp frame (wpE (defs₀ (F := F)) Variants.none c none) E (cc0__moe_kernel i a0 ha0 a1 ha1 a2 ha2 a3 ha3 a4 ha4 a5 ha5 a6 ha6 a7 ha7 a8 ha8 a9 ha9 a10 ha10 a11 ha11 a12 ha12 a13 ha13 a14 ha14) K := by
  simp only [cc0__moe_kernel_eq_skeleton]; unfold cc0__moe_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩⟩, Hk⟩
  subst hf0 hf1 hf2 hf3 hf4 hf5 hf6 hf7 hf8 hf9 hf10 hf11 hf12
  sl_exec
  sl_step
  iapply Hk
  isplitl [H13]
  · iexists _; isplitr; swap; · iexact H13
    ipureintro; exact View.read_writes_eq_canon _ _ _ (cover0_13 _)
  isplitl [H14]
  · iexists _; isplitr; swap; · iexact H14
    ipureintro; exact View.read_writes_eq_canon _ _ _ (cover0_13 _)
  sl_close

end

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t
    ∧ (dats m 0 c).after 5 t = iblk m c 5 t ∧ (dats m 0 c).after 6 t = iblk m c 6 t ∧ (dats m 0 c).after 7 t = iblk m c 7 t ∧ (dats m 0 c).after 8 t = iblk m c 8 t
    ∧ (dats m 0 c).after 9 t = iblk m c 9 t ∧ (dats m 0 c).after 10 t = iblk m c 10 t ∧ (dats m 0 c).after 11 t = iblk m c 11 t ∧ (dats m 0 c).after 12 t = iblk m c 12 t := by
  and_intros <;> dsimp only [dats]

theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_fst (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t) ∧ (∀ d, (dats m 0 c).before 6 t d = iblk m c 6 t) := by
  and_intros <;> exact fun d => (Dat.before_in_eq_fetched _ _ (by rfl) (fun _ => by rfl) (fun _ _ _ => by rfl)
    (fun _ => by unfold Dat.blockOf; dsimp only [dats]; try rfl) t d).trans (by unfold Dat.fetched Dat.blockOf; dsimp only [dats]; try rfl)

theorem before_snd (c : Dev nD) (t : Fin cfg0.N) :
    (∀ d, (dats m 0 c).before 7 t d = iblk m c 7 t) ∧ (∀ d, (dats m 0 c).before 8 t d = iblk m c 8 t) ∧ (∀ d, (dats m 0 c).before 9 t d = iblk m c 9 t)
    ∧ (∀ d, (dats m 0 c).before 10 t d = iblk m c 10 t) ∧ (∀ d, (dats m 0 c).before 11 t d = iblk m c 11 t) ∧ (∀ d, (dats m 0 c).before 12 t d = iblk m c 12 t) := by
  and_intros <;> exact fun d => (Dat.before_in_eq_fetched _ _ (by rfl) (fun _ => by rfl) (fun _ _ _ => by rfl)
    (fun _ => by unfold Dat.blockOf; dsimp only [dats]; try rfl) t d).trans (by unfold Dat.fetched Dat.blockOf; dsimp only [dats]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_fst m c t, before_snd m c t, after_in m c t]
  rw [show (dats m 0 c).Φ t.succ = (dats m 0 c).Φ t.castSucc from rfl,
    show (dats m 0 c).owesAt () t.succ = (dats m 0 c).owesAt () t.castSucc from rfl, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) c Set.univ _ _ _ _ _ _ _ _ _ _ _ _ _ _ _ _ _ _ _ _ _ _ _ _ _ _ _ _ _ _ _ _)
  isplitr [HΦ Ho]
  · sl_close
  iintro ⟨H13, H14, H0, H1, H2, H3, H4, H5, H6, H7, H8, H9, H10, H11, H12⟩
  isplitl [HΦ]; · iexact HΦ
  isplitl [Ho]; · iexact Ho
  sl_close

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Each argument ends as it was launched: nothing writes it. -/
theorem run_named : θ_run defs (onTc (τ := τ) (main (F := F))) ⟨m, fun _ => 0, ρ⟩ fun r => ∀ c : Dev nD,
      r.2.mem ((c.tc : Thread nD τ).loc main_v206_0) = (dats m 0 c).arrAt 13 cfg0.N
      ∧ r.2.mem ((c.tc : Thread nD τ).loc main_v206_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => by
    have k (b : Ref sig .tc) (hb : b.idx.val < 20 ∧ b.isScoped = false ∧ ∀ w, (spec0 w).arr.view.ref ≠ b) :
        r.2.mem ((c.tc : Thread nD τ).loc b) = m ((c.tc : Thread nD τ).loc b) :=
      ((h c).2 b (Pipeline.mem_restRefs_of b hb.2.1 hb.2.2)).trans (V_keeps m c b hb.1)
    refine ⟨(h c).1 13, (h c).1 14, ((h c).1 0).trans (((dats m 0 c).arrAt_in 0 rfl _).trans ((A_eq m c 0).trans (V_keeps m c main_arg0 (by decide)))), ?_⟩
    and_intros <;> exact k _ (by decide)) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2.2) (run_named m ρ)

end Cert.KernelIdeal.Hand

end
-- ==== Proof.Spec.lean ====
import Idealize.ShloMosaic.Lib.ValueIdx
import Idealize.ShloMosaic.PureOps.Ideal

noncomputable section

namespace Cert.RanSpec

open Idealize.ShloMosaic Idealize.ShloMosaic.ValueIdx

-- entry (a, b) of a rank-2 array, zero outside its extents
def at2 {n0 n1 : Nat} (A : (⟨2, ![n0, n1]⟩ : Shape).Idx → EReal) (a b : Nat) : EReal :=
  if h : a < n0 ∧ b < n1 then A (ix2 ⟨a, h.1⟩ ⟨b, h.2⟩) else 0

-- entry (a, b, c) of a rank-3 array, zero outside its extents
def at3 {n0 n1 n2 : Nat} (A : (⟨3, ![n0, n1, n2]⟩ : Shape).Idx → EReal) (a b c : Nat) : EReal :=
  if h : a < n0 ∧ b < n1 ∧ c < n2 then A (ix3 ⟨a, h.1⟩ ⟨b, h.2.1⟩ ⟨c, h.2.2⟩) else 0

theorem at2_ix2 {n0 n1 : Nat} (A : (⟨2, ![n0, n1]⟩ : Shape).Idx → EReal) (a : Fin n0) (b : Fin n1) :
    at2 A a.val b.val = A (ix2 a b) := by
  unfold at2; rw [dif_pos ⟨a.isLt, b.isLt⟩]

theorem at3_ix3 {n0 n1 n2 : Nat} (A : (⟨3, ![n0, n1, n2]⟩ : Shape).Idx → EReal) (a : Fin n0) (b : Fin n1) (c : Fin n2) :
    at3 A a.val b.val c.val = A (ix3 a b c) := by
  unfold at3; rw [dif_pos ⟨a.isLt, b.isLt, c.isLt⟩]

theorem at2_apply {n0 n1 : Nat} (A : (⟨2, ![n0, n1]⟩ : Shape).Idx → EReal) (i : (⟨2, ![n0, n1]⟩ : Shape).Idx) :
    A i = at2 A (i 0).val (i 1).val :=
  ((at2_ix2 A (i 0) (i 1)).trans (congrArg A (eq_ix2 i).symm)).symm

theorem at3_apply {n0 n1 n2 : Nat} (A : (⟨3, ![n0, n1, n2]⟩ : Shape).Idx → EReal) (i : (⟨3, ![n0, n1, n2]⟩ : Shape).Idx) :
    A i = at3 A (i 0).val (i 1).val (i 2).val :=
  ((at3_ix3 A (i 0) (i 1) (i 2)).trans (congrArg A (eq_ix3 i).symm)).symm

-- the column of x that estimator e samples at position j
def colOf (RS : (⟨2, ![100, 16]⟩ : Shape).Idx → BitVec 32) (e j : Nat) : Nat :=
  if h : e < 100 ∧ j < 16 then (RS (ix2 ⟨e, h.1⟩ ⟨j, h.2⟩)).toNat else 0

def relu (x : EReal) : EReal := max x 0

-- one dense layer at output o: (∑ i < din, h i * W i o) + B o
def dense (din : Nat) (h : Nat → EReal) (W : Nat → Nat → EReal) (B : Nat → EReal) (o : Nat) : EReal :=
  (∑ i ∈ Finset.range din, h i * W i o) + B o

section net

variable (X : (⟨2, ![8192, 64]⟩ : Shape).Idx → EReal) (col : Nat → Nat → Nat)
  (W0 : (⟨3, ![100, 16, 8]⟩ : Shape).Idx → EReal) (B0 : (⟨2, ![100, 8]⟩ : Shape).Idx → EReal)
  (W1 : (⟨3, ![100, 8, 4]⟩ : Shape).Idx → EReal) (B1 : (⟨2, ![100, 4]⟩ : Shape).Idx → EReal)
  (Wl : (⟨3, ![100, 4, 8]⟩ : Shape).Idx → EReal) (Bl : (⟨2, ![100, 8]⟩ : Shape).Idx → EReal)

-- the encoder of estimator e on batch row b: 16 sampled columns → 8 → 4 → 8, max(·, 0) after each layer
def enc1 (e b o : Nat) : EReal :=
  relu (dense 16 (fun j => at2 X b (col e j)) (fun j o => at3 W0 e j o) (fun o => at2 B0 e o) o)

def enc2 (e b o : Nat) : EReal :=
  relu (dense 8 (enc1 X col W0 B0 e b) (fun i o => at3 W1 e i o) (fun o => at2 B1 e o) o)

def lat (e b o : Nat) : EReal :=
  relu (dense 4 (enc2 X col W0 B0 W1 B1 e b) (fun i o => at3 Wl e i o) (fun o => at2 Bl e o) o)

variable (D0 : (⟨3, ![100, 8, 16]⟩ : Shape).Idx → EReal) (Db0 : (⟨2, ![100, 16]⟩ : Shape).Idx → EReal)
  (D1 : (⟨3, ![100, 16, 32]⟩ : Shape).Idx → EReal) (Db1 : (⟨2, ![100, 32]⟩ : Shape).Idx → EReal)
  (Dr : (⟨3, ![100, 32, 64]⟩ : Shape).Idx → EReal) (Dbr : (⟨2, ![100, 64]⟩ : Shape).Idx → EReal)

-- one decoder on the 8 latent values: 8 → 16 → 32 → 64, max(·, 0) after the first two layers
def dec1 (e b o : Nat) : EReal :=
  relu (dense 8 (lat X col W0 B0 W1 B1 Wl Bl e b) (fun i o => at3 D0 e i o) (fun o => at2 Db0 e o) o)

def dec2 (e b o : Nat) : EReal :=
  relu (dense 16 (dec1 X col W0 B0 W1 B1 Wl Bl D0 Db0 e b) (fun i o => at3 D1 e i o) (fun o => at2 Db1 e o) o)

def decOut (e b f : Nat) : EReal :=
  dense 32 (dec2 X col W0 B0 W1 B1 Wl Bl D0 Db0 D1 Db1 e b) (fun i f => at3 Dr e i f) (fun f => at2 Dbr e f) f

-- one decoder's result array [100, 8192, 64]
def out : (⟨3, ![100, 8192, 64]⟩ : Shape).Idx → EReal :=
  fun i => decOut X col W0 B0 W1 B1 Wl Bl D0 Db0 D1 Db1 Dr Dbr (i 0).val (i 1).val (i 2).val

end net

section group

variable (x : Nat → EReal)
  (w1 : Nat → Nat → EReal) (b1 : Nat → EReal) (w2 : Nat → Nat → EReal) (b2 : Nat → EReal)
  (w3 : Nat → Nat → EReal) (b3 : Nat → EReal) (w4 : Nat → Nat → EReal) (b4 : Nat → EReal)
  (w5 : Nat → Nat → EReal) (b5 : Nat → EReal) (w6 : Nat → Nat → EReal) (b6 : Nat → EReal)

-- four estimators at once on one batch row, by block weights: widths 256 → 32 → 16 → 32 → 128 → 256 → 512
def g1 (n : Nat) : EReal := relu (dense 256 (fun k => x (k % 64)) w1 b1 n)
def g2 (n : Nat) : EReal := relu (dense 32 (g1 x w1 b1) w2 b2 n)
def g3 (n : Nat) : EReal := relu (dense 16 (g2 x w1 b1 w2 b2) w3 b3 n)
def g4 (n : Nat) : EReal := relu (dense 32 (g3 x w1 b1 w2 b2 w3 b3) w4 b4 n)
def g5 (n : Nat) : EReal := relu (dense 128 (g4 x w1 b1 w2 b2 w3 b3 w4 b4) w5 b5 n)

def g6 (n : Nat) : EReal := dense 256 (g5 x w1 b1 w2 b2 w3 b3 w4 b4 w5 b5) w6 b6 n

end group

end Cert.RanSpec

end
-- ==== Proof.BlockReads.lean ====
import proofs.«417456_j29695403885050_3_alg».proof.Proof.EntryKI
import proofs.«417456_j29695403885050_3_alg».proof.Proof.Gen.KernelIdeal.Points
import proofs.«417456_j29695403885050_3_alg».proof.Proof.Spec
import Idealize.ShloMosaic.Lib.Pipeline.Value

set_option Elab.async false

noncomputable section

namespace Cert.KernelIdeal.Blocks

open Cert.KernelIdeal Cert.KernelIdeal.Gen Cert.KernelIdeal.Hand Cert.RanSpec
open Idealize.ShloMosaic Idealize.ShloMosaic.ValueIdx Idealize.ShloMosaic.TcCoe Idealize.SL.Sem

variable (m : (ℓ : Loc nD τ sig) → Buf (Elt Ideal) ℓ) (c : Dev nD)

abbrev blkOf (w : Fin cfg0.W) (t : Fin cfg0.N) :=
  ((cfg0.win w).blk t).view.read (Elt Ideal) (V m c (Pipeline.arrRef spec0 w))

-- Point t has batch tile t / 25 and group t % 25: the batch window's block index is (t / 25, 0),
theorem ix0 : ∀ t : Fin cfg0.N, ∀ a : Fin 2, win0_0.index t a = ![t.val / 25, 0] a :=
  (by decide +kernel : ∀ t : Fin grid0.N, _)

abbrev inIdx (t : Fin cfg0.N) : Fin 12 → Fin 3 → Nat :=
  ![win0_1.index t, win0_2.index t, win0_3.index t, win0_4.index t, win0_5.index t, win0_6.index t,
    win0_7.index t, win0_8.index t, win0_9.index t, win0_10.index t, win0_11.index t, win0_12.index t]

-- each of the twelve weight and bias windows' is (t % 25, 0, 0),
theorem ix_in : ∀ t : Fin cfg0.N, ∀ (w : Fin 12) (a : Fin 3), inIdx t w a = ![t.val % 25, 0, 0] a :=
  (by decide +kernel : ∀ t : Fin grid0.N, _)

-- and each result window's is (t % 25, t / 25, 0).
theorem ix_out : ∀ t : Fin cfg0.N, ∀ a : Fin 3, win0_13.index t a = ![t.val % 25, t.val / 25, 0] a
    ∧ win0_14.index t a = ![t.val % 25, t.val / 25, 0] a :=
  (by decide +kernel : ∀ t : Fin grid0.N, _)

theorem rd0 (t : Fin cfg0.N) (r f : Nat) (hr : r < 2048) (hf : f < 64) :
    at2 (blkOf m c 0 t : S2048x64.Idx → EReal) r f = at2 (V m c main_arg0 : S8192x64.Idx → EReal) (2048 * (t.val / 25) + r) f := by
  have ht : t.val < 100 := Nat.lt_of_lt_of_eq t.isLt N_0
  have e0 : win0_0.index t (0 : Fin 2) = t.val / 25 := ix0 t 0
  have e1 : win0_0.index t (1 : Fin 2) = 0 := ix0 t 1
  have hr' : 2048 * (t.val / 25) + r < 8192 := by omega
  unfold at2
  rw [dif_pos ⟨hr, hf⟩, dif_pos ⟨hr', hf⟩]
  show V m c main_arg0 (((cfg0.win 0).blk t).view.emb (ix2 ⟨r, hr⟩ ⟨f, hf⟩)) = V m c main_arg0 (ix2 ⟨2048 * (t.val / 25) + r, hr'⟩ ⟨f, hf⟩)
  refine congrArg _ ?_
  funext a; apply Fin.ext
  match a with
  | ⟨0, _⟩ => show win0_0.index t (0 : Fin 2) * 2048 + 1 * r = 2048 * (t.val / 25) + r; omega
  | ⟨1, _⟩ => show win0_0.index t (1 : Fin 2) * 64 + 1 * f = f; omega

-- A [1, K, N] block at block index (g, 0, 0) of a [G, K, N] array is the array's slab g.
theorem at3_slab {G K N : Nat} (A : (⟨3, ![G, K, N]⟩ : Shape).Idx → EReal)
    (emb : (⟨3, ![1, K, N]⟩ : Shape).Idx → (⟨3, ![G, K, N]⟩ : Shape).Idx) {ix sz : Fin 3 → Nat} {g : Nat}
    (hix : ∀ a, ix a = ![g, 0, 0] a) (he : ∀ y a, ((emb y) a).val = ix a * sz a + (y a).val)
    (hs : sz 0 = 1) (k n : Nat) (hk : k < K) (hn : n < N) :
    at3 (fun y => A (emb y)) 0 k n = at3 A g k n := by
  have i0 : ix 0 = g := hix 0
  have i1 : ix 1 = 0 := hix 1
  have i2 : ix 2 = 0 := hix 2
  have e0 := he (ix3 ⟨0, Nat.one_pos⟩ ⟨k, hk⟩ ⟨n, hn⟩) 0
  have e1 := he (ix3 ⟨0, Nat.one_pos⟩ ⟨k, hk⟩ ⟨n, hn⟩) 1
  have e2 := he (ix3 ⟨0, Nat.one_pos⟩ ⟨k, hk⟩ ⟨n, hn⟩) 2
  rw [i0, hs] at e0
  rw [i1] at e1
  rw [i2] at e2
  refine (at3_ix3 (fun y => A (emb y)) ⟨0, Nat.one_pos⟩ ⟨k, hk⟩ ⟨n, hn⟩).trans ((at3_apply A _).trans ?_)
  rw [e0, e1, e2]
  show at3 A (g * 1 + 0) (0 * sz 1 + k) (0 * sz 2 + n) = _
  rw [Nat.mul_one, Nat.add_zero, Nat.zero_mul, Nat.zero_add, Nat.zero_mul, Nat.zero_add]

theorem rd1 (t : Fin cfg0.N) (k n : Nat) (hk : k < 256) (hn : n < 32) :
    at3 (blkOf m c 1 t : S1x256x32.Idx → EReal) 0 k n = at3 (V m c main_v58 : S25x256x32.Idx → EReal) (t.val % 25) k n :=
  at3_slab (V m c main_v58 : S25x256x32.Idx → EReal) ((cfg0.win 1).blk t).view.emb (ix_in t 0) (win0_1.rect_emb_val t) rfl k n hk hn

theorem rd2 (t : Fin cfg0.N) (n : Nat) (hn : n < 32) :
    at3 (blkOf m c 2 t : S1x1x32.Idx → EReal) 0 0 n = at3 (V m c main_v195 : S25x1x32.Idx → EReal) (t.val % 25) 0 n :=
  at3_slab (V m c main_v195 : S25x1x32.Idx → EReal) ((cfg0.win 2).blk t).view.emb (ix_in t 1) (win0_2.rect_emb_val t) rfl 0 n Nat.one_pos hn

theorem rd3 (t : Fin cfg0.N) (k n : Nat) (hk : k < 32) (hn : n < 16) :
    at3 (blkOf m c 3 t : S1x32x16.Idx → EReal) 0 k n = at3 (V m c main_v85 : S25x32x16.Idx → EReal) (t.val % 25) k n :=
  at3_slab (V m c main_v85 : S25x32x16.Idx → EReal) ((cfg0.win 3).blk t).view.emb (ix_in t 2) (win0_3.rect_emb_val t) rfl k n hk hn

theorem rd4 (t : Fin cfg0.N) (n : Nat) (hn : n < 16) :
    at3 (blkOf m c 4 t : S1x1x16.Idx → EReal) 0 0 n = at3 (V m c main_v197 : S25x1x16.Idx → EReal) (t.val % 25) 0 n :=
  at3_slab (V m c main_v197 : S25x1x16.Idx → EReal) ((cfg0.win 4).blk t).view.emb (ix_in t 3) (win0_4.rect_emb_val t) rfl 0 n Nat.one_pos hn

theorem rd5 (t : Fin cfg0.N) (k n : Nat) (hk : k < 16) (hn : n < 32) :
    at3 (blkOf m c 5 t : S1x16x32.Idx → EReal) 0 k n = at3 (V m c main_v112 : S25x16x32.Idx → EReal) (t.val % 25) k n :=
  at3_slab (V m c main_v112 : S25x16x32.Idx → EReal) ((cfg0.win 5).blk t).view.emb (ix_in t 4) (win0_5.rect_emb_val t) rfl k n hk hn

theorem rd6 (t : Fin cfg0.N) (n : Nat) (hn : n < 32) :
    at3 (blkOf m c 6 t : S1x1x32.Idx → EReal) 0 0 n = at3 (V m c main_v199 : S25x1x32.Idx → EReal) (t.val % 25) 0 n :=
  at3_slab (V m c main_v199 : S25x1x32.Idx → EReal) ((cfg0.win 6).blk t).view.emb (ix_in t 5) (win0_6.rect_emb_val t) rfl 0 n Nat.one_pos hn

theorem rd7 (t : Fin cfg0.N) (k n : Nat) (hk : k < 32) (hn : n < 128) :
    at3 (blkOf m c 7 t : S1x32x128.Idx → EReal) 0 k n = at3 (V m c main_v139 : S25x32x128.Idx → EReal) (t.val % 25) k n :=
  at3_slab (V m c main_v139 : S25x32x128.Idx → EReal) ((cfg0.win 7).blk t).view.emb (ix_in t 6) (win0_7.rect_emb_val t) rfl k n hk hn

theorem rd8 (t : Fin cfg0.N) (n : Nat) (hn : n < 128) :
    at3 (blkOf m c 8 t : S1x1x128.Idx → EReal) 0 0 n = at3 (V m c main_v201 : S25x1x128.Idx → EReal) (t.val % 25) 0 n :=
  at3_slab (V m c main_v201 : S25x1x128.Idx → EReal) ((cfg0.win 8).blk t).view.emb (ix_in t 7) (win0_8.rect_emb_val t) rfl 0 n Nat.one_pos hn

theorem rd9 (t : Fin cfg0.N) (k n : Nat) (hk : k < 128) (hn : n < 256) :
    at3 (blkOf m c 9 t : S1x128x256.Idx → EReal) 0 k n = at3 (V m c main_v166 : S25x128x256.Idx → EReal) (t.val % 25) k n :=
  at3_slab (V m c main_v166 : S25x128x256.Idx → EReal) ((cfg0.win 9).blk t).view.emb (ix_in t 8) (win0_9.rect_emb_val t) rfl k n hk hn

theorem rd10 (t : Fin cfg0.N) (n : Nat) (hn : n < 256) :
    at3 (blkOf m c 10 t : S1x1x256.Idx → EReal) 0 0 n = at3 (V m c main_v203 : S25x1x256.Idx → EReal) (t.val % 25) 0 n :=
  at3_slab (V m c main_v203 : S25x1x256.Idx → EReal) ((cfg0.win 10).blk t).view.emb (ix_in t 9) (win0_10.rect_emb_val t) rfl 0 n Nat.one_pos hn

theorem rd11 (t : Fin cfg0.N) (k n : Nat) (hk : k < 256) (hn : n < 512) :
    at3 (blkOf m c 11 t : S1x256x512.Idx → EReal) 0 k n = at3 (V m c main_v193 : S25x256x512.Idx → EReal) (t.val % 25) k n :=
  at3_slab (V m c main_v193 : S25x256x512.Idx → EReal) ((cfg0.win 11).blk t).view.emb (ix_in t 10) (win0_11.rect_emb_val t) rfl k n hk hn

theorem rd12 (t : Fin cfg0.N) (n : Nat) (hn : n < 512) :
    at3 (blkOf m c 12 t : S1x1x512.Idx → EReal) 0 0 n = at3 (V m c main_v205 : S25x1x512.Idx → EReal) (t.val % 25) 0 n :=
  at3_slab (V m c main_v205 : S25x1x512.Idx → EReal) ((cfg0.win 12).blk t).view.emb (ix_in t 11) (win0_12.rect_emb_val t) rfl 0 n Nat.one_pos hn

-- An element y of a [4, 2048, 64] block at block index (g, q, 0) sits at (4 g + y 0, 2048 q + y 1, y 2).
theorem out_emb {ix e y : Fin 3 → Nat} {g q : Nat} (hix : ∀ a, ix a = ![g, q, 0] a)
    (he : ∀ a, e a = ix a * S4x2048x64.size a + y a) :
    e 0 = 4 * g + y 0 ∧ e 1 = 2048 * q + y 1 ∧ e 2 = y 2 := by
  have i0 : ix 0 = g := hix 0
  have i1 : ix 1 = q := hix 1
  have i2 : ix 2 = 0 := hix 2
  have e0 : e 0 = ix 0 * 4 + y 0 := he 0
  have e1 : e 1 = ix 1 * 2048 + y 1 := he 1
  have e2 : e 2 = ix 2 * 64 + y 2 := he 2
  omega

theorem emb13 (t : Fin cfg0.N) (y : S4x2048x64.Idx) :
    ((((cfg0.win 13).blk t).view.emb y) 0).val = 4 * (t.val % 25) + (y 0).val
    ∧ ((((cfg0.win 13).blk t).view.emb y) 1).val = 2048 * (t.val / 25) + (y 1).val
    ∧ ((((cfg0.win 13).blk t).view.emb y) 2).val = (y 2).val :=
  out_emb (fun a => (ix_out t a).1) (win0_13.rect_emb_val t y)

theorem emb14 (t : Fin cfg0.N) (y : S4x2048x64.Idx) :
    ((((cfg0.win 14).blk t).view.emb y) 0).val = 4 * (t.val % 25) + (y 0).val
    ∧ ((((cfg0.win 14).blk t).view.emb y) 1).val = 2048 * (t.val / 25) + (y 1).val
    ∧ ((((cfg0.win 14).blk t).view.emb y) 2).val = (y 2).val :=
  out_emb (fun a => (ix_out t a).2) (win0_14.rect_emb_val t y)

-- Index (e, b, f) of a result array lies in the block of point 25 (b / 2048) + e / 4: the blocks tile the array.
def ptOf (i : S100x8192x64.Idx) : Fin cfg0.N := ⟨25 * ((i 1).val / 2048) + (i 0).val / 4, by
  have hi0 : (i 0).val < 100 := (i 0).isLt
  have hi1 : (i 1).val < 8192 := (i 1).isLt
  exact Nat.lt_of_lt_of_eq (by omega) N_0.symm⟩

theorem mem_out (i : S100x8192x64.Idx) {ix : Fin 3 → Nat} (hix : ∀ a, ix a = ![(ptOf i).val % 25, (ptOf i).val / 25, 0] a)
    (inb : ∀ a, ix a * S4x2048x64.size a + S4x2048x64.size a ≤ S100x8192x64.size a) :
    i ∈ (Rect.unit (s := S100x8192x64) (fun a => ix a * S4x2048x64.size a) S4x2048x64.size inb).set := by
  have hp : (ptOf i).val = 25 * ((i 1).val / 2048) + (i 0).val / 4 := rfl
  have hi0 : (i 0).val < 100 := (i 0).isLt
  have hi1 : (i 1).val < 8192 := (i 1).isLt
  have hi2 : (i 2).val < 64 := (i 2).isLt
  have i0 : ix 0 = (ptOf i).val % 25 := hix 0
  have i1 : ix 1 = (ptOf i).val / 25 := hix 1
  have i2 : ix 2 = 0 := hix 2
  rw [Rect.mem_set_unit]
  intro a
  match a with
  | ⟨0, _⟩ => show ix 0 * 4 ≤ (i 0).val ∧ (i 0).val < ix 0 * 4 + 4; omega
  | ⟨1, _⟩ => show ix 1 * 2048 ≤ (i 1).val ∧ (i 1).val < ix 1 * 2048 + 2048; omega
  | ⟨2, _⟩ => show ix 2 * 64 ≤ (i 2).val ∧ (i 2).val < ix 2 * 64 + 64; omega

theorem cover13 : ∀ i : ((cfg0.win 13).arr.view.loc (c.tc : Thread nD τ)).2.ty.Idx,
    ∃ t : Fin cfg0.N, (cfg0.win 13).flush t = true ∧ i ∈ ((cfg0.win 13).blk t).view.set := fun (i : S100x8192x64.Idx) => by
  refine ⟨ptOf i, flush0_13 _, ?_⟩
  show i ∈ ((View.whole main_v206_0).slice (win0_13.rect (ptOf i))).set
  rw [View.set_slice_whole]
  exact mem_out i (fun a => (ix_out (ptOf i) a).1) _

theorem cover14 : ∀ i : ((cfg0.win 14).arr.view.loc (c.tc : Thread nD τ)).2.ty.Idx,
    ∃ t : Fin cfg0.N, (cfg0.win 14).flush t = true ∧ i ∈ ((cfg0.win 14).blk t).view.set := fun (i : S100x8192x64.Idx) => by
  refine ⟨ptOf i, flush0_14 _, ?_⟩
  show i ∈ ((View.whole main_v206_1).slice (win0_14.rect (ptOf i))).set
  rw [View.set_slice_whole]
  exact mem_out i (fun a => (ix_out (ptOf i) a).2) _

end Cert.KernelIdeal.Blocks

end
-- ==== Proof.LibPlainDot.lean ====
import Idealize.ShloMosaic.Lib.ValueIdx
import Idealize.ShloMosaic.PureOps.Ideal.Laws

noncomputable section

namespace Idealize.ShloMosaic.PlainDot

open Idealize.ShloMosaic Idealize.ShloMosaic.ValueIdx

/-- A plain matrix product into the zero accumulator at entry (p, q): the operand indices at contraction position k are (p, k) and (k, q). -/
theorem matmul_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

end Idealize.ShloMosaic.PlainDot

end
-- ==== Proof.Payload.lean ====
import proofs.«417456_j29695403885050_3_alg».proof.Proof.Gen.KernelIdeal.Skeleton
import proofs.«417456_j29695403885050_3_alg».proof.Proof.Spec
import proofs.«417456_j29695403885050_3_alg».proof.Proof.LibPlainDot
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.RanSpec Cert.KernelIdeal.Gen

/-- One dense layer at entry (p, q): the product's sum over k plus the bias entry q, h being the left operand's row p. -/
theorem dense_layer {M K N : Nat}
    (l : FVec Ideal ⟨2, ![M, K]⟩ .bf16) (W : FVec Ideal ⟨3, ![1, K, N]⟩ .bf16) (B : FVec Ideal ⟨3, ![1, 1, N]⟩ .f32)
    (hW : (⟨3, ![1, K, N]⟩ : Shape).ShapeCasts ⟨2, ![K, N]⟩) (hB : (⟨3, ![1, 1, N]⟩ : Shape).ShapeCasts ⟨2, ![1, N]⟩)
    (hbc : (⟨2, ![1, N]⟩ : Shape).Broadcasts ⟨2, ![M, N]⟩)
    (h : Nat → EReal) (p : Fin M) (hl : ∀ k : Fin K, l (ix2 p k) = h k.val) (q : Fin N) :
    addf (matmul (DotDims.plain M K N) none l (shapeCast ⟨2, ![K, N]⟩ W hW) (constant (F := Ideal) ⟨2, ![M, N]⟩ .f32 0x00000000#32))
        (broadcastTo ⟨2, ![M, N]⟩ (shapeCast ⟨2, ![1, N]⟩ B hB) hbc) (ix2 p q)
      = dense K h (fun k n => at3 W 0 k n) (fun n => at3 B 0 0 n) q.val := by
  rw [addf_apply]
  refine congrArg₂ (· + ·) ?_ ?_
  · refine (PlainDot.matmul_zero_apply none l _ p q).trans ?_
    rw [Finset.sum_range]
    refine Finset.sum_congr rfl fun k _ => ?_
    rw [hl k, shapeCast_1ab_ab_apply]
    exact congrArg (h k.val * ·) (at3_ix3 W (0 : Fin 1) k q).symm
  · rw [broadcastTo_1b_ab_apply, shapeCast_1ab_ab_apply]
    exact (at3_ix3 B (0 : Fin 1) (0 : Fin 1) q).symm

/-- The entrywise maximum against the constant zero array is max(·, 0). -/
theorem relu_apply {s : Shape} (v : FVec Ideal s .f32) (i : s.Idx) {y : EReal} (hv : v i = y) :
    maximumf v (broadcast s (Scalar.ofBits (F := Ideal) .f32 0x00000000#32)) i = relu y :=
  congrArg₂ max hv Ideal.ofBits_zero_f32

/-- Four copies of a block side by side: column k reads the block's column k mod 64. -/
theorem rep4_apply (v : FVec Ideal S2048x64 .bf16)
    (hc : Shape.Concatenates [S2048x64, S2048x64, S2048x64, S2048x64] S2048x256 1) (p : Fin 2048) (k : Fin 256) :
    concatenate S2048x256 1 [⟨S2048x64, v⟩, ⟨S2048x64, v⟩, ⟨S2048x64, v⟩, ⟨S2048x64, v⟩] hc (ix2 p k)
      = v (ix2 p ⟨k.val % 64, Nat.mod_lt _ (by decide)⟩) :=
  concatenate_replicate_apply (t := S2048x256) (s₁ := S2048x64) 1 4 v hc rfl (ix2 p k)
    (ix2 p ⟨k.val % 64, Nat.mod_lt _ (by decide)⟩) rfl
    (fun b hb => by
      match b with
      | ⟨0, _⟩ => rfl
      | ⟨1, _⟩ => exact absurd rfl hb)

/-- Six dense layers, max(·, 0) after each but the last, a change of float format being the identity: entry (p, q) is g6 of row p at q. -/
theorem pay4_apply (x0 : Vec Ideal S2048x64 .f32) (v3 : Vec Ideal S1x256x32 .bf16) (v6 : Vec Ideal S1x1x32 .f32)
    (v13 : Vec Ideal S1x32x16 .bf16) (v16 : Vec Ideal S1x1x16 .f32) (v23 : Vec Ideal S1x16x32 .bf16)
    (v26 : Vec Ideal S1x1x32 .f32) (v33 : Vec Ideal S1x32x128 .bf16) (v36 : Vec Ideal S1x1x128 .f32)
    (v43 : Vec Ideal S1x128x256 .bf16) (v46 : Vec Ideal S1x1x256 .f32) (v53 : Vec Ideal S1x256x512 .bf16)
    (v56 : Vec Ideal S1x1x512 .f32) (p : Fin 2048) (q : Fin 512) :
    k0_pay4 (k0_pay3 x0 v3 v6 v13 v16 v23 v26) v33 v36 v43 v46 v53 v56 (ix2 p q)
      = g6 (fun f => at2 x0 p.val f) (fun k n => at3 v3 0 k n) (fun n => at3 v6 0 0 n) (fun k n => at3 v13 0 k n)
          (fun n => at3 v16 0 0 n) (fun k n => at3 v23 0 k n) (fun n => at3 v26 0 0 n)
          (fun k n => at3 v33 0 k n) (fun n => at3 v36 0 0 n) (fun k n => at3 v43 0 k n)
          (fun n => at3 v46 0 0 n) (fun k n => at3 v53 0 k n) (fun n => at3 v56 0 0 n) q.val := by
  unfold k0_pay4
  refine dense_layer _ v53 v56 _ _ _ _ p (fun k => ?_) q
  refine relu_apply _ _ (dense_layer _ v43 v46 _ _ _ _ p (fun k => ?_) k)
  refine relu_apply _ _ (dense_layer _ v33 v36 _ _ _ _ p (fun k => ?_) k)
  unfold k0_pay3
  refine relu_apply _ _ (dense_layer _ v23 v26 _ _ _ _ p (fun k => ?_) k)
  refine relu_apply _ _ (dense_layer _ v13 v16 _ _ _ _ p (fun k => ?_) k)
  refine relu_apply _ _ (dense_layer _ v3 v6 _ _ _ _ p (fun k => ?_) k)
  refine (rep4_apply _ _ p k).trans ?_
  exact (at2_ix2 x0 p ⟨k.val % 64, Nat.mod_lt _ (by decide)⟩).symm

/-- A band of 64 columns from column o on, under a leading unit axis: entry (0, p, f) is the source's (p, o + f). -/
theorem band_apply (o : Nat) (Y : FVec Ideal S2048x512 .f32) (hs : S2048x512.Slices ![0, o] S2048x64)
    (hc : S2048x64.ShapeCasts S1x2048x64) (u : Fin 1) (p : Fin 2048) (f : Fin 64) (k : Fin 512) (hk : k.val = o + f.val) :
    shapeCast S1x2048x64 (extractStridedSlice S2048x64 ![0, o] Y hs) hc (ix3 u p f) = Y (ix2 p k) :=
  (shapeCast_ab_1ab_apply _ _ u p f).trans (slice2_axis1_apply o _ _ p f k hk)

/-- Four pieces of leading extent 1 stacked along that axis: entry (j, r, f) is piece j's (0, r, f). -/
theorem stack4 (a0 a1 a2 a3 : FVec Ideal S1x2048x64 .f32)
    (hc : Shape.Concatenates [S1x2048x64, S1x2048x64, S1x2048x64, S1x2048x64] S4x2048x64 0)
    (j : Fin 4) (r : Fin 2048) (f : Fin 64) :
    concatenate S4x2048x64 0 [⟨S1x2048x64, a0⟩, ⟨S1x2048x64, a1⟩, ⟨S1x2048x64, a2⟩, ⟨S1x2048x64, a3⟩] hc (ix3 j r f)
      = ([a0, a1, a2, a3][j.val]'j.isLt) (ix3 (0 : Fin 1) r f) :=
  concatenate_ofFn_unit_apply (t := S4x2048x64) (s₁ := S1x2048x64) 0 (fun n : Fin 4 => [a0, a1, a2, a3][n.val]'n.isLt) hc rfl rfl (ix3 j r f) j rfl
    (ix3 (0 : Fin 1) r f) fun b hb => by
      match b with
      | ⟨0, _⟩ => exact absurd rfl hb
      | ⟨1, _⟩ => rfl
      | ⟨2, _⟩ => rfl

/-- The bands from columns 128 j on, stacked: entry (j, r, f) is g6 of row r at 128 j + f. -/
theorem pay_hi (x0 : Vec Ideal S2048x64 .f32) (v3 : Vec Ideal S1x256x32 .bf16) (v6 : Vec Ideal S1x1x32 .f32)
    (v13 : Vec Ideal S1x32x16 .bf16) (v16 : Vec Ideal S1x1x16 .f32) (v23 : Vec Ideal S1x16x32 .bf16)
    (v26 : Vec Ideal S1x1x32 .f32) (v33 : Vec Ideal S1x32x128 .bf16) (v36 : Vec Ideal S1x1x128 .f32)
    (v43 : Vec Ideal S1x128x256 .bf16) (v46 : Vec Ideal S1x1x256 .f32) (v53 : Vec Ideal S1x256x512 .bf16)
    (v56 : Vec Ideal S1x1x512 .f32) (j r f : Nat) (hj : j < 4) (hr : r < 2048) (hf : f < 64) :
    at3 (k0_pay1 (k0_pay5 (k0_pay3 x0 v3 v6 v13 v16 v23 v26) v33 v36 v43 v46 v53 v56) (k0_pay6 (k0_pay3 x0 v3 v6 v13 v16 v23 v26) v33 v36 v43 v46 v53 v56)
        (k0_pay7 (k0_pay3 x0 v3 v6 v13 v16 v23 v26) v33 v36 v43 v46 v53 v56) (k0_pay12 (k0_pay3 x0 v3 v6 v13 v16 v23 v26) v33 v36 v43 v46 v53 v56)) j r f
      = g6 (fun f => at2 x0 r f) (fun k n => at3 v3 0 k n) (fun n => at3 v6 0 0 n) (fun k n => at3 v13 0 k n)
          (fun n => at3 v16 0 0 n) (fun k n => at3 v23 0 k n) (fun n => at3 v26 0 0 n)
          (fun k n => at3 v33 0 k n) (fun n => at3 v36 0 0 n) (fun k n => at3 v43 0 k n)
          (fun n => at3 v46 0 0 n) (fun k n => at3 v53 0 k n) (fun n => at3 v56 0 0 n) (128 * j + f) := by
  refine (at3_ix3 _ ⟨j, hj⟩ ⟨r, hr⟩ ⟨f, hf⟩).trans ?_
  unfold k0_pay1
  refine (stack4 _ _ _ _ _ ⟨j, hj⟩ ⟨r, hr⟩ ⟨f, hf⟩).trans ?_
  have P := pay4_apply x0 v3 v6 v13 v16 v23 v26 v33 v36 v43 v46 v53 v56 ⟨r, hr⟩ ⟨128 * j + f, by omega⟩
  have hj' : j = 0 ∨ j = 1 ∨ j = 2 ∨ j = 3 := by omega
  rcases hj' with rfl | rfl | rfl | rfl
  · exact (band_apply 0 _ (by decide) _ 0 _ _ _ (by rfl)).trans P
  · exact (band_apply 128 _ (by decide) _ 0 _ _ _ (by rfl)).trans P
  · exact (band_apply 256 _ (by decide) _ 0 _ _ _ (by rfl)).trans P
  · exact (band_apply 384 _ (by decide) _ 0 _ _ _ (by rfl)).trans P

/-- The bands from columns 128 j + 64 on, stacked: entry (j, r, f) is g6 of row r at 128 j + 64 + f. -/
theorem pay_lo (x0 : Vec Ideal S2048x64 .f32) (v3 : Vec Ideal S1x256x32 .bf16) (v6 : Vec Ideal S1x1x32 .f32)
    (v13 : Vec Ideal S1x32x16 .bf16) (v16 : Vec Ideal S1x1x16 .f32) (v23 : Vec Ideal S1x16x32 .bf16)
    (v26 : Vec Ideal S1x1x32 .f32) (v33 : Vec Ideal S1x32x128 .bf16) (v36 : Vec Ideal S1x1x128 .f32)
    (v43 : Vec Ideal S1x128x256 .bf16) (v46 : Vec Ideal S1x1x256 .f32) (v53 : Vec Ideal S1x256x512 .bf16)
    (v56 : Vec Ideal S1x1x512 .f32) (j r f : Nat) (hj : j < 4) (hr : r < 2048) (hf : f < 64) :
    at3 (k0_pay2 (k0_pay8 (k0_pay3 x0 v3 v6 v13 v16 v23 v26) v33 v36 v43 v46 v53 v56) (k0_pay9 (k0_pay3 x0 v3 v6 v13 v16 v23 v26) v33 v36 v43 v46 v53 v56)
        (k0_pay10 (k0_pay3 x0 v3 v6 v13 v16 v23 v26) v33 v36 v43 v46 v53 v56) (k0_pay11 (k0_pay3 x0 v3 v6 v13 v16 v23 v26) v33 v36 v43 v46 v53 v56)) j r f
      = g6 (fun f => at2 x0 r f) (fun k n => at3 v3 0 k n) (fun n => at3 v6 0 0 n) (fun k n => at3 v13 0 k n)
          (fun n => at3 v16 0 0 n) (fun k n => at3 v23 0 k n) (fun n => at3 v26 0 0 n)
          (fun k n => at3 v33 0 k n) (fun n => at3 v36 0 0 n) (fun k n => at3 v43 0 k n)
          (fun n => at3 v46 0 0 n) (fun k n => at3 v53 0 k n) (fun n => at3 v56 0 0 n) (128 * j + 64 + f) := by
  refine (at3_ix3 _ ⟨j, hj⟩ ⟨r, hr⟩ ⟨f, hf⟩).trans ?_
  unfold k0_pay2
  refine (stack4 _ _ _ _ _ ⟨j, hj⟩ ⟨r, hr⟩ ⟨f, hf⟩).trans ?_
  have P := pay4_apply x0 v3 v6 v13 v16 v23 v26 v33 v36 v43 v46 v53 v56 ⟨r, hr⟩ ⟨128 * j + 64 + f, by omega⟩
  have hj' : j = 0 ∨ j = 1 ∨ j = 2 ∨ j = 3 := by omega
  rcases hj' with rfl | rfl | rfl | rfl
  · exact (band_apply 64 _ (by decide) _ 0 _ _ _ (by rfl)).trans P
  · exact (band_apply 192 _ (by decide) _ 0 _ _ _ (by rfl)).trans P
  · exact (band_apply 320 _ (by decide) _ 0 _ _ _ (by rfl)).trans P
  · exact (band_apply 448 _ (by decide) _ 0 _ _ _ (by rfl)).trans P

end Cert.KernelIdeal.Payload

end
-- ==== Proof.LibAfter.lean ====
import Idealize.ShloMosaic.Lib.StableHlo.Run

noncomputable section

namespace Cert.LibAfter

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

def Writes (ops : List (HloOp τ sig Val)) (ys : List (Ref sig .tc)) : Prop :=
  ops.map (fun o => o.writes) = ys.map fun y => ({Proc.devRef .tc y} : Finset (DevRef τ sig))

theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

end Cert.LibAfter

end
-- ==== Proof.HostLine.lean ====
import proofs.«417456_j29695403885050_3_alg».proof.Proof.EntryKI
import proofs.«417456_j29695403885050_3_alg».proof.Proof.LibAfter
import Idealize.ShloMosaic.PureOps.Ideal

set_option maxRecDepth 8192

noncomputable section

namespace Cert.LibAfter

open Idealize.ShloMosaic Idealize.ShloMosaic.StableHlo

variable {τ : Topo} {sig : RefSig} {Val : EltTy → Type}
variable {ops : List (HloOp τ sig Val)} {ys : List (Ref sig .tc)}

theorem Writes.nary4 (hW : Writes ops ys) (V : Valuation τ sig Val) (k : Nat) {x a b c y : Ref sig .tc}
    {f : ((j : Fin 4) → ((![x, a, b, c] : Fin 4 → Ref sig .tc) j).ty.Contents Val) → y.ty.Contents Val} {hxs hy}
    (hop : ops[k]? = some (nary ![x, a, b, c] y f hxs hy)) (hy' : y ∉ ys.drop (k + 1)) (hx' : x ∉ ys.drop k)
    (ha' : a ∉ ys.drop k) (hb' : b ∉ ys.drop k) (hc' : c ∉ ys.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [hW.at V k hop hy', nary4_result, hW.back V k x hx', hW.back V k a ha', hW.back V k b hb', hW.back V k c hc']

end Cert.LibAfter

namespace Cert.KernelIdeal.HostLine

open Idealize.ShloMosaic Idealize.ShloMosaic.TcCoe Idealize.SL.Sem
open Cert.KernelIdeal Cert.KernelIdeal.Gen

def ys0 : List (Ref sig .tc) :=
  [
    main_v0, main_v1, main_cst, main_v2, main_c, main_v3, main_v4, main_c_0, main_v5, main_v6, main_v7, main_c_1,
    main_v8, main_v9, main_c_2, main_v10, main_v11, main_v12, main_v13, main_v14, main_v15, main_v16, main_v17,
    main_v18, main_v19, main_cst_3, main_v20, main_v21, main_cst_4, main_v22, main_v23, main_v24, main_v25,
    main_cst_5, main_v26, main_v27, main_cst_6, main_v28, main_v29, main_v30, main_v31, main_v32, main_v33,
    main_v34, main_cst_7, main_v35, main_cst_8, main_v36, main_cst_9, main_v37, main_v38, main_cst_10, main_v39,
    main_v40, main_v41, main_cst_11, main_v42, main_cst_12, main_v43, main_v44, main_cst_13, main_v45, main_cst_14,
    main_v46, main_v47, main_v48, main_cst_15, main_v49, main_v50, main_cst_16, main_v51, main_cst_17, main_v52,
    main_cst_18, main_v53, main_v54, main_v55, main_v56, main_v57, main_v58, main_v59, main_v60, main_v61,
    main_cst_19, main_v62, main_cst_20, main_v63, main_cst_21, main_v64, main_v65, main_cst_22, main_v66, main_v67,
    main_v68, main_cst_23, main_v69, main_cst_24, main_v70, main_v71, main_cst_25, main_v72, main_cst_26, main_v73,
    main_v74, main_v75, main_cst_27, main_v76, main_v77, main_cst_28, main_v78, main_cst_29, main_v79, main_cst_30,
    main_v80, main_v81, main_v82, main_v83, main_v84, main_v85, main_v86, main_v87, main_v88, main_cst_31, main_v89,
    main_cst_32, main_v90, main_cst_33, main_v91, main_v92, main_cst_34, main_v93, main_v94, main_v95, main_cst_35,
    main_v96, main_cst_36, main_v97, main_v98, main_cst_37, main_v99, main_cst_38, main_v100, main_v101, main_v102,
    main_cst_39, main_v103, main_v104, main_cst_40, main_v105, main_cst_41, main_v106, main_cst_42, main_v107,
    main_v108, main_v109, main_v110, main_v111, main_v112, main_v113, main_v114, main_v115, main_cst_43, main_v116,
    main_cst_44, main_v117, main_cst_45, main_v118, main_v119, main_cst_46, main_v120, main_v121, main_v122,
    main_cst_47, main_v123, main_cst_48, main_v124, main_v125, main_cst_49, main_v126, main_cst_50, main_v127,
    main_v128, main_v129, main_cst_51, main_v130, main_v131, main_cst_52, main_v132, main_cst_53, main_v133,
    main_cst_54, main_v134, main_v135, main_v136, main_v137, main_v138, main_v139, main_v140, main_v141, main_v142,
    main_cst_55, main_v143, main_cst_56, main_v144, main_cst_57, main_v145, main_v146, main_cst_58, main_v147,
    main_v148, main_v149, main_cst_59, main_v150, main_cst_60, main_v151, main_v152, main_cst_61, main_v153,
    main_cst_62, main_v154, main_v155, main_v156, main_cst_63, main_v157, main_v158, main_cst_64, main_v159,
    main_cst_65, main_v160, main_cst_66, main_v161, main_v162, main_v163, main_v164, main_v165, main_v166,
    main_v167, main_v168, main_v169, main_cst_67, main_v170, main_cst_68, main_v171, main_cst_69, main_v172,
    main_v173, main_cst_70, main_v174, main_v175, main_v176, main_cst_71, main_v177, main_cst_72, main_v178,
    main_v179, main_cst_73, main_v180, main_cst_74, main_v181, main_v182, main_v183, main_cst_75, main_v184,
    main_v185, main_cst_76, main_v186, main_cst_77, main_v187, main_cst_78, main_v188, main_v189, main_v190,
    main_v191, main_v192, main_v193, main_v194, main_v195, main_v196, main_v197, main_v198, main_v199, main_v200,
    main_v201, main_v202, main_v203, main_v204, main_v205 ]

theorem hostWrites {F : FTy → Type} [FloatOps F] : Cert.LibAfter.Writes (hostOps0 (F := F)) ys0 := rfl

section line

open Idealize.ShloMosaic.StableHlo Cert.LibAfter

variable (m : (ℓ : Loc nD τ sig) → Buf (Elt Ideal) ℓ) (c : Dev nD)

def L : Valuation τ sig (Elt Ideal) := after hostOps0 (fun b => m (c, b))

theorem V_L (y : Ref sig .tc) : Hand.V m c y = L m c (Proc.devRef .tc y) := rfl

theorem kept (x : Ref sig .tc) (hx : x ∉ ys0) : L m c (Proc.devRef .tc x) = m (c, Proc.devRef .tc x) :=
  hostWrites.kept _ x hx

theorem nul (k : Nat) {y : Ref sig .tc} {v : y.ty.Contents (Elt Ideal)} {hy}
    (hop : (hostOps0 (F := Ideal))[k]? = some (nullary y v hy)) (hy' : y ∉ ys0.drop (k + 1)) :
    L m c (Proc.devRef .tc y) = v :=
  hostWrites.nullary _ k hop hy'

theorem una (k : Nat) {x y : Ref sig .tc} {f : x.ty.Contents (Elt Ideal) → y.ty.Contents (Elt Ideal)} {hx hy}
    (hop : (hostOps0 (F := Ideal))[k]? = some (unary x y f hx hy)) (hy' : y ∉ ys0.drop (k + 1)) (hx' : x ∉ ys0.drop k) :
    L m c (Proc.devRef .tc y) = f (L m c (Proc.devRef .tc x)) :=
  hostWrites.unary _ k hop hy' hx'

theorem bin (k : Nat) {a b y : Ref sig .tc}
    {f : a.ty.Contents (Elt Ideal) → b.ty.Contents (Elt Ideal) → y.ty.Contents (Elt Ideal)} {ha hb hy}
    (hop : (hostOps0 (F := Ideal))[k]? = some (binary a b y f ha hb hy)) (hy' : y ∉ ys0.drop (k + 1))
    (ha' : a ∉ ys0.drop k) (hb' : b ∉ ys0.drop k) :
    L m c (Proc.devRef .tc y) = f (L m c (Proc.devRef .tc a)) (L m c (Proc.devRef .tc b)) :=
  hostWrites.binary _ k hop hy' ha' hb'

theorem ter (k : Nat) {d a b y : Ref sig .tc}
    {f : d.ty.Contents (Elt Ideal) → a.ty.Contents (Elt Ideal) → b.ty.Contents (Elt Ideal) → y.ty.Contents (Elt Ideal)}
    {hd ha hb hy} (hop : (hostOps0 (F := Ideal))[k]? = some (ternary d a b y f hd ha hb hy)) (hy' : y ∉ ys0.drop (k + 1))
    (hd' : d ∉ ys0.drop k) (ha' : a ∉ ys0.drop k) (hb' : b ∉ ys0.drop k) :
    L m c (Proc.devRef .tc y) = f (L m c (Proc.devRef .tc d)) (L m c (Proc.devRef .tc a)) (L m c (Proc.devRef .tc b)) :=
  hostWrites.ternary _ k hop hy' hd' ha' hb'

theorem rsh (k : Nat) {x y : Ref sig .tc} {he : x.ty.elt = y.ty.elt} {hn : x.ty.shape.ShapeCasts y.ty.shape} {hx hy}
    (hop : (hostOps0 (F := Ideal))[k]? = some (reshape x y he hn hx hy)) (hy' : y ∉ ys0.drop (k + 1)) (hx' : x ∉ ys0.drop k) :
    L m c (Proc.devRef .tc y) = fun i => he ▸ shapeCast y.ty.shape (L m c (Proc.devRef .tc x)) hn i :=
  hostWrites.reshape _ k hop hy' hx'

theorem cat4 (k : Nat) {x a b d y : Ref sig .tc}
    {f : ((j : Fin 4) → ((![x, a, b, d] : Fin 4 → Ref sig .tc) j).ty.Contents (Elt Ideal)) → y.ty.Contents (Elt Ideal)} {hxs hy}
    (hop : (hostOps0 (F := Ideal))[k]? = some (nary ![x, a, b, d] y f hxs hy)) (hy' : y ∉ ys0.drop (k + 1))
    (hx' : x ∉ ys0.drop k) (ha' : a ∉ ys0.drop k) (hb' : b ∉ ys0.drop k) (hd' : d ∉ ys0.drop k) :
    L m c (Proc.devRef .tc y)
      = f (Fin.cons (L m c (Proc.devRef .tc x)) (Fin.cons (L m c (Proc.devRef .tc a))
          (Fin.cons (L m c (Proc.devRef .tc b)) (Fin.cons (L m c (Proc.devRef .tc d)) (fun i => i.elim0))))) :=
  hostWrites.nary4 _ k hop hy' hx' ha' hb' hd'

attribute [irreducible] L

end line

end Cert.KernelIdeal.HostLine

end
-- ==== Proof.LibDiag.lean ====
import proofs.«417456_j29695403885050_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Diag

open Cert.RanSpec Idealize.ShloMosaic Idealize.ShloMosaic.ValueIdx

def at4 {n0 n1 n2 n3 : Nat} (A : (⟨4, ![n0, n1, n2, n3]⟩ : Shape).Idx → EReal) (a b c d : Nat) : EReal :=
  if h : a < n0 ∧ b < n1 ∧ c < n2 ∧ d < n3 then A (ix4 ⟨a, h.1⟩ ⟨b, h.2.1⟩ ⟨c, h.2.2.1⟩ ⟨d, h.2.2.2⟩) else 0

theorem at3_pos {n0 n1 n2 : Nat} (A : (⟨3, ![n0, n1, n2]⟩ : Shape).Idx → EReal) {a b c : Nat} (ha : a < n0) (hb : b < n1)
    (hc : c < n2) : at3 A a b c = A (ix3 ⟨a, ha⟩ ⟨b, hb⟩ ⟨c, hc⟩) := by
  unfold at3; rw [dif_pos ⟨ha, hb, hc⟩]

theorem at4_pos {n0 n1 n2 n3 : Nat} (A : (⟨4, ![n0, n1, n2, n3]⟩ : Shape).Idx → EReal) {a b c d : Nat} (ha : a < n0)
    (hb : b < n1) (hc : c < n2) (hd : d < n3) : at4 A a b c d = A (ix4 ⟨a, ha⟩ ⟨b, hb⟩ ⟨c, hc⟩ ⟨d, hd⟩) := by
  unfold at4; rw [dif_pos ⟨ha, hb, hc, hd⟩]

theorem cat2_axis2 {n0 n1 a b m : Nat} (X : (⟨3, ![n0, n1, a]⟩ : Shape).Idx → EReal)
    (Y : (⟨3, ![n0, n1, b]⟩ : Shape).Idx → EReal)
    (h : Shape.Concatenates [⟨3, ![n0, n1, a]⟩, ⟨3, ![n0, n1, b]⟩] ⟨3, ![n0, n1, m]⟩ 2) (hm : a + b = m)
    (e i o : Nat) (he : e < n0) (hi : i < n1) (ho : o < m) :
    at3 (concatenate ⟨3, ![n0, n1, m]⟩ 2 [⟨⟨3, ![n0, n1, a]⟩, X⟩, ⟨⟨3, ![n0, n1, b]⟩, Y⟩] h) e i o
      = if o < a then at3 X e i o else at3 Y e i (o - a) := by
  rw [at3_pos _ he hi ho]
  split
  · next hlt =>
    rw [at3_pos _ he hi hlt]
    exact concatenate_pair_apply_left _ X Y h _ rfl _ (fun ax => match ax with | ⟨0, _⟩ => rfl | ⟨1, _⟩ => rfl | ⟨2, _⟩ => rfl)
  · next hge =>
    have hlt : o - a < b := by omega
    rw [at3_pos _ he hi hlt]
    refine concatenate_pair_apply_right _ X Y h _ rfl rfl _ (fun ax hne => ?_) ?_
    · match ax with
      | ⟨0, _⟩ => rfl
      | ⟨1, _⟩ => rfl
      | ⟨2, _⟩ => exact absurd rfl hne
    · show o - a + a = o
      omega

theorem cat2_axis1 {n0 a b n2 m : Nat} (X : (⟨3, ![n0, a, n2]⟩ : Shape).Idx → EReal)
    (Y : (⟨3, ![n0, b, n2]⟩ : Shape).Idx → EReal)
    (h : Shape.Concatenates [⟨3, ![n0, a, n2]⟩, ⟨3, ![n0, b, n2]⟩] ⟨3, ![n0, m, n2]⟩ 1) (hm : a + b = m)
    (e i o : Nat) (he : e < n0) (hi : i < m) (ho : o < n2) :
    at3 (concatenate ⟨3, ![n0, m, n2]⟩ 1 [⟨⟨3, ![n0, a, n2]⟩, X⟩, ⟨⟨3, ![n0, b, n2]⟩, Y⟩] h) e i o
      = if i < a then at3 X e i o else at3 Y e (i - a) o := by
  rw [at3_pos _ he hi ho]
  split
  · next hlt =>
    rw [at3_pos _ he hlt ho]
    exact concatenate_pair_apply_left _ X Y h _ rfl _ (fun ax => match ax with | ⟨0, _⟩ => rfl | ⟨1, _⟩ => rfl | ⟨2, _⟩ => rfl)
  · next hge =>
    have hlt : i - a < b := by omega
    rw [at3_pos _ he hlt ho]
    refine concatenate_pair_apply_right _ X Y h _ rfl rfl _ (fun ax hne => ?_) ?_
    · match ax with
      | ⟨0, _⟩ => rfl
      | ⟨1, _⟩ => exact absurd rfl hne
      | ⟨2, _⟩ => rfl
    · show i - a + a = i
      omega

theorem zeros3 {n0 n1 n2 : Nat} (hb : (⟨0, ![]⟩ : Shape).BroadcastsInDim ⟨3, ![n0, n1, n2]⟩ ![]) (e i o : Nat) :
    at3 (broadcastInDim (⟨3, ![n0, n1, n2]⟩ : Shape) ![] hb (constant (F := Ideal) ⟨0, ![]⟩ .f32 0x00000000#32)) e i o = 0 := by
  unfold at3
  split
  · show Ideal.ofBits .f32 0x00000000#32 = 0
    exact Ideal.ofBits_zero_f32
  · rfl

theorem split4 {n0 g0 a b : Nat} (X : (⟨3, ![n0, a, b]⟩ : Shape).Idx → EReal)
    (h : (⟨3, ![n0, a, b]⟩ : Shape).ShapeCasts ⟨4, ![g0, 4, a, b]⟩) (hn : n0 = g0 * 4)
    (g j i o : Nat) (hg : g < g0) (hj : j < 4) (hi : i < a) (ho : o < b) :
    at4 (shapeCast ⟨4, ![g0, 4, a, b]⟩ X h) g j i o = at3 X (4 * g + j) i o := by
  have he : 4 * g + j < n0 := by omega
  rw [at4_pos _ hg hj hi ho, at3_pos _ he hi ho]
  refine shapeCast_apply X h _ _ ?_
  rw [Shape.rowMajor_val_three, Shape.rowMajor_val_four]
  show ((4 * g + j) * a + i) * b + o = (((g * 4 + j) * a + i) * b + o)
  rw [Nat.mul_comm 4 g]

theorem member {g0 a b : Nat} (q : Nat) (X : (⟨4, ![g0, 4, a, b]⟩ : Shape).Idx → EReal)
    (hs : (⟨4, ![g0, 4, a, b]⟩ : Shape).Slices ![0, q, 0, 0] ⟨4, ![g0, 1, a, b]⟩)
    (hc : (⟨4, ![g0, 1, a, b]⟩ : Shape).ShapeCasts ⟨3, ![g0, a, b]⟩)
    (g i o : Nat) (hg : g < g0) (hi : i < a) (ho : o < b) :
    at3 (shapeCast ⟨3, ![g0, a, b]⟩ (extractStridedSlice ⟨4, ![g0, 1, a, b]⟩ ![0, q, 0, 0] X hs) hc) g i o = at4 X g q i o := by
  have hq : q < 4 := by have := hs.2 1; simpa using this
  rw [at3_pos _ hg hi ho, at4_pos _ hg hq hi ho]
  refine (shapeCast_apply _ hc _ (ix4 ⟨g, hg⟩ (0 : Fin 1) ⟨i, hi⟩ ⟨o, ho⟩) ?_).trans ?_
  · rw [Shape.rowMajor_val_three, Shape.rowMajor_val_four]
    show ((g * 1 + 0) * a + i) * b + o = (g * a + i) * b + o
    rw [Nat.mul_one, Nat.add_zero]
  · exact slice4_axis1_apply q X hs _ _ _ _ ⟨q, hq⟩ rfl

def sel4 {α : Type} (q : Nat) (x0 x1 x2 x3 : α) : α :=
  match q with
  | 0 => x0
  | 1 => x1
  | 2 => x2
  | _ => x3

theorem cat4_axis2 {n0 n1 b m : Nat} (P0 P1 P2 P3 : (⟨3, ![n0, n1, b]⟩ : Shape).Idx → EReal)
    (h : Shape.Concatenates [⟨3, ![n0, n1, b]⟩, ⟨3, ![n0, n1, b]⟩, ⟨3, ![n0, n1, b]⟩, ⟨3, ![n0, n1, b]⟩] ⟨3, ![n0, n1, m]⟩ 2)
    (hm : 4 * b = m) (g i n : Nat) (hg : g < n0) (hi : i < n1) (hn : n < m) :
    at3 (concatenate ⟨3, ![n0, n1, m]⟩ 2 [⟨⟨3, ![n0, n1, b]⟩, P0⟩, ⟨⟨3, ![n0, n1, b]⟩, P1⟩, ⟨⟨3, ![n0, n1, b]⟩, P2⟩,
        ⟨⟨3, ![n0, n1, b]⟩, P3⟩] h) g i n
      = at3 (sel4 (n / b) P0 P1 P2 P3) g i (n % b) := by
  have hb : 0 < b := by omega
  have hq : n / b < 4 := by rw [Nat.div_lt_iff_lt_mul hb]; omega
  have hr : n % b < b := Nat.mod_lt _ hb
  have hdm := Nat.div_add_mod n b
  rw [at3_pos _ hg hi hn, at3_pos _ hg hi hr]
  generalize n / b = q at hq hdm ⊢
  have hoff : ∀ ax : Fin 3, Fin.cast rfl ax ≠ (2 : Fin 3) →
      ((ix3 ⟨g, hg⟩ ⟨i, hi⟩ ⟨n % b, hr⟩ : (⟨3, ![n0, n1, b]⟩ : Shape).Idx) ax).val
        = ((ix3 ⟨g, hg⟩ ⟨i, hi⟩ ⟨n, hn⟩ : (⟨3, ![n0, n1, m]⟩ : Shape).Idx) (Fin.cast rfl ax)).val := fun ax hne => by
    match ax with
    | ⟨0, _⟩ => rfl
    | ⟨1, _⟩ => rfl
    | ⟨2, _⟩ => exact absurd rfl hne
  let XS : List ((s : Shape) × (s.Idx → EReal)) :=
    [⟨⟨3, ![n0, n1, b]⟩, P0⟩, ⟨⟨3, ![n0, n1, b]⟩, P1⟩, ⟨⟨3, ![n0, n1, b]⟩, P2⟩, ⟨⟨3, ![n0, n1, b]⟩, P3⟩]
  match q, hq with
  | 0, _ =>
    exact concatenate_apply_piece (t := ⟨3, ![n0, n1, m]⟩) 2 XS h _ 0 (by show (0 : Nat) < 4; omega) _ P0 rfl rfl 0 rfl _ hoff (by show 0 + n % b = n; omega)
  | 1, _ =>
    exact concatenate_apply_piece (t := ⟨3, ![n0, n1, m]⟩) 2 XS h _ 1 (by show (1 : Nat) < 4; omega) _ P1 rfl rfl (b + 0) rfl _ hoff (by show b + 0 + n % b = n; omega)
  | 2, _ =>
    exact concatenate_apply_piece (t := ⟨3, ![n0, n1, m]⟩) 2 XS h _ 2 (by show (2 : Nat) < 4; omega) _ P2 rfl rfl (b + (b + 0)) rfl _ hoff
      (by show b + (b + 0) + n % b = n; omega)
  | 3, _ =>
    exact concatenate_apply_piece (t := ⟨3, ![n0, n1, m]⟩) 2 XS h _ 3 (by show (3 : Nat) < 4; omega) _ P3 rfl rfl (b + (b + (b + 0))) rfl _ hoff
      (by show b + (b + (b + 0)) + n % b = n; omega)

theorem cat4_axis1 {n0 a n2 m : Nat} (P0 P1 P2 P3 : (⟨3, ![n0, a, n2]⟩ : Shape).Idx → EReal)
    (h : Shape.Concatenates [⟨3, ![n0, a, n2]⟩, ⟨3, ![n0, a, n2]⟩, ⟨3, ![n0, a, n2]⟩, ⟨3, ![n0, a, n2]⟩] ⟨3, ![n0, m, n2]⟩ 1)
    (hm : 4 * a = m) (g k n : Nat) (hg : g < n0) (hk : k < m) (hn : n < n2) :
    at3 (concatenate ⟨3, ![n0, m, n2]⟩ 1 [⟨⟨3, ![n0, a, n2]⟩, P0⟩, ⟨⟨3, ![n0, a, n2]⟩, P1⟩, ⟨⟨3, ![n0, a, n2]⟩, P2⟩,
        ⟨⟨3, ![n0, a, n2]⟩, P3⟩] h) g k n
      = at3 (sel4 (k / a) P0 P1 P2 P3) g (k % a) n := by
  have hb : 0 < a := by omega
  have hq : k / a < 4 := by rw [Nat.div_lt_iff_lt_mul hb]; omega
  have hr : k % a < a := Nat.mod_lt _ hb
  have hdm := Nat.div_add_mod k a
  rw [at3_pos _ hg hk hn, at3_pos _ hg hr hn]
  generalize k / a = q at hq hdm ⊢
  have hoff : ∀ ax : Fin 3, Fin.cast rfl ax ≠ (1 : Fin 3) →
      ((ix3 ⟨g, hg⟩ ⟨k % a, hr⟩ ⟨n, hn⟩ : (⟨3, ![n0, a, n2]⟩ : Shape).Idx) ax).val
        = ((ix3 ⟨g, hg⟩ ⟨k, hk⟩ ⟨n, hn⟩ : (⟨3, ![n0, m, n2]⟩ : Shape).Idx) (Fin.cast rfl ax)).val := fun ax hne => by
    match ax with
    | ⟨0, _⟩ => rfl
    | ⟨1, _⟩ => exact absurd rfl hne
    | ⟨2, _⟩ => rfl
  let XS : List ((s : Shape) × (s.Idx → EReal)) :=
    [⟨⟨3, ![n0, a, n2]⟩, P0⟩, ⟨⟨3, ![n0, a, n2]⟩, P1⟩, ⟨⟨3, ![n0, a, n2]⟩, P2⟩, ⟨⟨3, ![n0, a, n2]⟩, P3⟩]
  match q, hq with
  | 0, _ =>
    exact concatenate_apply_piece (t := ⟨3, ![n0, m, n2]⟩) 1 XS h _ 0 (by show (0 : Nat) < 4; omega) _ P0 rfl rfl 0 rfl _ hoff (by show 0 + k % a = k; omega)
  | 1, _ =>
    exact concatenate_apply_piece (t := ⟨3, ![n0, m, n2]⟩) 1 XS h _ 1 (by show (1 : Nat) < 4; omega) _ P1 rfl rfl (a + 0) rfl _ hoff (by show a + 0 + k % a = k; omega)
  | 2, _ =>
    exact concatenate_apply_piece (t := ⟨3, ![n0, m, n2]⟩) 1 XS h _ 2 (by show (2 : Nat) < 4; omega) _ P2 rfl rfl (a + (a + 0)) rfl _ hoff
      (by show a + (a + 0) + k % a = k; omega)
  | 3, _ =>
    exact concatenate_apply_piece (t := ⟨3, ![n0, m, n2]⟩) 1 XS h _ 3 (by show (3 : Nat) < 4; omega) _ P3 rfl rfl (a + (a + (a + 0))) rfl _ hoff
      (by show a + (a + (a + 0)) + k % a = k; omega)

-- the zero constant broadcast reads zero everywhere
theorem zero_piece {n0 n1 n2 : Nat} {Z : (⟨3, ![n0, n1, n2]⟩ : Shape).Idx → EReal} {cst : (⟨0, ![]⟩ : Shape).Idx → EReal}
    {hb : (⟨0, ![]⟩ : Shape).BroadcastsInDim ⟨3, ![n0, n1, n2]⟩ ![]}
    (hc : cst = constant (F := Ideal) ⟨0, ![]⟩ .f32 0x00000000#32)
    (hZ : Z = broadcastInDim (⟨3, ![n0, n1, n2]⟩ : Shape) ![] hb cst) (e i o : Nat) : at3 Z e i o = 0 := by
  rw [hZ, hc]; exact zeros3 hb e i o

section pair

variable {E a b a2 b2 : Nat} {A B Za Zb : (⟨3, ![E, a, b]⟩ : Shape).Idx → EReal} {U L : (⟨3, ![E, a, b2]⟩ : Shape).Idx → EReal}
  {W : (⟨3, ![E, a2, b2]⟩ : Shape).Idx → EReal}
  {h2 : Shape.Concatenates [⟨3, ![E, a, b]⟩, ⟨3, ![E, a, b]⟩] ⟨3, ![E, a, b2]⟩ 2}
  {h1 : Shape.Concatenates [⟨3, ![E, a, b2]⟩, ⟨3, ![E, a, b2]⟩] ⟨3, ![E, a2, b2]⟩ 1}

-- the block ( A 0 ; 0 B ) read at (i, o): A above and left of the seams, B below and right, zero elsewhere
theorem pair_entry (hb : b + b = b2) (ha : a + a = a2) (hZa : ∀ e i o, at3 Za e i o = 0) (hZb : ∀ e i o, at3 Zb e i o = 0)
    (hU : U = concatenate _ 2 [⟨_, A⟩, ⟨_, Za⟩] h2) (hL : L = concatenate _ 2 [⟨_, Zb⟩, ⟨_, B⟩] h2)
    (hW : W = concatenate _ 1 [⟨_, U⟩, ⟨_, L⟩] h1) (e i o : Nat) (he : e < E) (hi : i < a2) (ho : o < b2) :
    at3 W e i o = if i < a then (if o < b then at3 A e i o else 0) else (if o < b then 0 else at3 B e (i - a) (o - b)) := by
  rw [hW, cat2_axis1 U L h1 ha e i o he hi ho]
  split
  · next h =>
    rw [hU, cat2_axis2 A Za h2 hb e i o he h ho]
    split
    · rfl
    · exact hZa _ _ _
  · next h =>
    rw [hL, cat2_axis2 Zb B h2 hb e (i - a) o he (by omega) ho]
    split
    · exact hZb _ _ _
    · rfl

end pair

section diag

variable {E G a b A B : Nat} {X : (⟨3, ![E, a, b]⟩ : Shape).Idx → EReal} {X4 : (⟨4, ![G, 4, a, b]⟩ : Shape).Idx → EReal}
  {hc4 : (⟨3, ![E, a, b]⟩ : Shape).ShapeCasts ⟨4, ![G, 4, a, b]⟩} {hc3 : (⟨4, ![G, 1, a, b]⟩ : Shape).ShapeCasts ⟨3, ![G, a, b]⟩}
  {h2 : Shape.Concatenates [⟨3, ![G, a, b]⟩, ⟨3, ![G, a, b]⟩, ⟨3, ![G, a, b]⟩, ⟨3, ![G, a, b]⟩] ⟨3, ![G, a, B]⟩ 2}
  {h1 : Shape.Concatenates [⟨3, ![G, a, B]⟩, ⟨3, ![G, a, B]⟩, ⟨3, ![G, a, B]⟩, ⟨3, ![G, a, B]⟩] ⟨3, ![G, A, B]⟩ 1}

-- member q of every group: group g's member q is entry 4 g + q of the array
theorem member_entry (hE : E = G * 4) (h4 : X4 = shapeCast _ X hc4) {q : Nat} (hq : q < 4)
    {Sq : (⟨4, ![G, 1, a, b]⟩ : Shape).Idx → EReal} {Dq : (⟨3, ![G, a, b]⟩ : Shape).Idx → EReal}
    {slq : (⟨4, ![G, 4, a, b]⟩ : Shape).Slices ![0, q, 0, 0] ⟨4, ![G, 1, a, b]⟩}
    (hS : Sq = extractStridedSlice _ ![0, q, 0, 0] X4 slq) (hD : Dq = shapeCast _ Sq hc3)
    (g i o : Nat) (hg : g < G) (hi : i < a) (ho : o < b) : at3 Dq g i o = at3 X (4 * g + q) i o := by
  rw [hD, hS, member q X4 slq hc3 g i o hg hi ho, h4, split4 X hc4 hE g q i o hg hq hi ho]

-- one block row: piece q is the data, the other three are zero
theorem row_entry (hB : 4 * b = B) (q : Nat) {P0 P1 P2 P3 : (⟨3, ![G, a, b]⟩ : Shape).Idx → EReal} {R : (⟨3, ![G, a, B]⟩ : Shape).Idx → EReal}
    {D : (⟨3, ![G, a, b]⟩ : Shape).Idx → EReal}
    (hR : R = concatenate _ 2 [⟨_, P0⟩, ⟨_, P1⟩, ⟨_, P2⟩, ⟨_, P3⟩] h2) (hdata : sel4 q P0 P1 P2 P3 = D)
    (hzero : ∀ p, p < 4 → p ≠ q → ∀ g i o, at3 (sel4 p P0 P1 P2 P3) g i o = 0)
    (g i n : Nat) (hg : g < G) (hi : i < a) (hn : n < B) :
    at3 R g i n = if q = n / b then at3 D g i (n % b) else 0 := by
  rw [hR, cat4_axis2 P0 P1 P2 P3 h2 hB g i n hg hi hn]
  by_cases h : q = n / b
  · rw [if_pos h, ← h, hdata]
  · rw [if_neg h]
    exact hzero (n / b) (Nat.div_lt_of_lt_mul (by omega)) (Ne.symm h) g _ _

variable {S0 S1 S2 S3 : (⟨4, ![G, 1, a, b]⟩ : Shape).Idx → EReal}
  {D0 D1 D2 D3 Za0 Za1 Za2 Zb0 Zb1 Zb2 Zc0 Zc1 Zc2 Zd0 Zd1 Zd2 : (⟨3, ![G, a, b]⟩ : Shape).Idx → EReal}
  {R0 R1 R2 R3 : (⟨3, ![G, a, B]⟩ : Shape).Idx → EReal} {C T : (⟨3, ![G, A, B]⟩ : Shape).Idx → EReal}
  {sl0 : (⟨4, ![G, 4, a, b]⟩ : Shape).Slices ![0, 0, 0, 0] ⟨4, ![G, 1, a, b]⟩}
  {sl1 : (⟨4, ![G, 4, a, b]⟩ : Shape).Slices ![0, 1, 0, 0] ⟨4, ![G, 1, a, b]⟩}
  {sl2 : (⟨4, ![G, 4, a, b]⟩ : Shape).Slices ![0, 2, 0, 0] ⟨4, ![G, 1, a, b]⟩}
  {sl3 : (⟨4, ![G, 4, a, b]⟩ : Shape).Slices ![0, 3, 0, 0] ⟨4, ![G, 1, a, b]⟩}

-- four members of each group laid on the diagonal of a 4 a by 4 b array, zeros elsewhere, then a change of float
-- format (the identity over the extended reals): off the diagonal blocks zero, on block q the entry of member q
theorem diag_entry (hE : E = G * 4) (hA : 4 * a = A) (hB : 4 * b = B) (h4 : X4 = shapeCast _ X hc4)
    (hS0 : S0 = extractStridedSlice _ ![0, 0, 0, 0] X4 sl0) (hD0 : D0 = shapeCast _ S0 hc3)
    (hZa0 : ∀ g i o, at3 Za0 g i o = 0) (hZa1 : ∀ g i o, at3 Za1 g i o = 0) (hZa2 : ∀ g i o, at3 Za2 g i o = 0)
    (hR0 : R0 = concatenate _ 2 [⟨_, D0⟩, ⟨_, Za0⟩, ⟨_, Za1⟩, ⟨_, Za2⟩] h2)
    (hZb0 : ∀ g i o, at3 Zb0 g i o = 0)
    (hS1 : S1 = extractStridedSlice _ ![0, 1, 0, 0] X4 sl1) (hD1 : D1 = shapeCast _ S1 hc3)
    (hZb1 : ∀ g i o, at3 Zb1 g i o = 0) (hZb2 : ∀ g i o, at3 Zb2 g i o = 0)
    (hR1 : R1 = concatenate _ 2 [⟨_, Zb0⟩, ⟨_, D1⟩, ⟨_, Zb1⟩, ⟨_, Zb2⟩] h2)
    (hZc0 : ∀ g i o, at3 Zc0 g i o = 0) (hZc1 : ∀ g i o, at3 Zc1 g i o = 0)
    (hS2 : S2 = extractStridedSlice _ ![0, 2, 0, 0] X4 sl2) (hD2 : D2 = shapeCast _ S2 hc3)
    (hZc2 : ∀ g i o, at3 Zc2 g i o = 0)
    (hR2 : R2 = concatenate _ 2 [⟨_, Zc0⟩, ⟨_, Zc1⟩, ⟨_, D2⟩, ⟨_, Zc2⟩] h2)
    (hZd0 : ∀ g i o, at3 Zd0 g i o = 0) (hZd1 : ∀ g i o, at3 Zd1 g i o = 0) (hZd2 : ∀ g i o, at3 Zd2 g i o = 0)
    (hS3 : S3 = extractStridedSlice _ ![0, 3, 0, 0] X4 sl3) (hD3 : D3 = shapeCast _ S3 hc3)
    (hR3 : R3 = concatenate _ 2 [⟨_, Zd0⟩, ⟨_, Zd1⟩, ⟨_, Zd2⟩, ⟨_, D3⟩] h2)
    (hC : C = concatenate _ 1 [⟨_, R0⟩, ⟨_, R1⟩, ⟨_, R2⟩, ⟨_, R3⟩] h1)
    {hbits : FTy.bits .bf16 < FTy.bits .f32} (hT : T = truncf (F := Ideal) (φ := .f32) .bf16 C hbits)
    (g k n : Nat) (hg : g < G) (hk : k < A) (hn : n < B) :
    at3 T g k n = if k / a = n / b then at3 X (4 * g + k / a) (k % a) (n % b) else 0 := by
  have e1 : at3 T g k n = at3 C g k n := by rw [hT]; rfl
  have hq : k / a < 4 := by rw [Nat.div_lt_iff_lt_mul (by omega)]; omega
  have hr : k % a < a := Nat.mod_lt _ (by omega)
  have hs : n % b < b := Nat.mod_lt _ (by omega)
  rw [e1, hC, cat4_axis1 R0 R1 R2 R3 h1 hA g k n hg hk hn]
  generalize k / a = q at hq ⊢
  match q, hq with
  | 0, _ =>
    exact (row_entry hB 0 (D := D0) hR0 rfl (fun p hp hne => match p, hp, hne with
      | 0, _, h => absurd rfl h | 1, _, _ => hZa0 | 2, _, _ => hZa1 | 3, _, _ => hZa2) g (k % a) n hg hr hn).trans
      (by rw [member_entry hE h4 (by omega) hS0 hD0 g (k % a) (n % b) hg hr hs])
  | 1, _ =>
    exact (row_entry hB 1 (D := D1) hR1 rfl (fun p hp hne => match p, hp, hne with
      | 0, _, _ => hZb0 | 1, _, h => absurd rfl h | 2, _, _ => hZb1 | 3, _, _ => hZb2) g (k % a) n hg hr hn).trans
      (by rw [member_entry hE h4 (by omega) hS1 hD1 g (k % a) (n % b) hg hr hs])
  | 2, _ =>
    exact (row_entry hB 2 (D := D2) hR2 rfl (fun p hp hne => match p, hp, hne with
      | 0, _, _ => hZc0 | 1, _, _ => hZc1 | 2, _, h => absurd rfl h | 3, _, _ => hZc2) g (k % a) n hg hr hn).trans
      (by rw [member_entry hE h4 (by omega) hS2 hD2 g (k % a) (n % b) hg hr hs])
  | 3, _ =>
    exact (row_entry hB 3 (D := D3) hR3 rfl (fun p hp hne => match p, hp, hne with
      | 0, _, _ => hZd0 | 1, _, _ => hZd1 | 2, _, _ => hZd2 | 3, _, h => absurd rfl h) g (k % a) n hg hr hn).trans
      (by rw [member_entry hE h4 (by omega) hS3 hD3 g (k % a) (n % b) hg hr hs])

end diag

end Cert.Diag

end
-- ==== Proof.HostW1.lean ====
import proofs.«417456_j29695403885050_3_alg».proof.Proof.HostLine
import proofs.«417456_j29695403885050_3_alg».proof.Proof.LibDiag
import Idealize.ShloMosaic.Lib.Pipeline.Value
import Idealize.ShloMosaic.Lib.ValueLayout
import Idealize.ShloMosaic.Lib.ValueIdx
import Idealize.ShloMosaic.Lib.StableHlo.Predicate
import Idealize.ShloMosaic.PureOps.Ideal.Laws

set_option maxRecDepth 16384

noncomputable section

namespace Cert.KernelIdeal.HostVal

open Cert.KernelIdeal Cert.KernelIdeal.Gen Cert.KernelIdeal.Hand Cert.KernelIdeal.HostLine Cert.RanSpec Cert.Diag
open Idealize.ShloMosaic Idealize.ShloMosaic.ValueIdx Idealize.ShloMosaic.TcCoe Idealize.SL.Sem
open Idealize.ShloMosaic.StableHlo

section reads
variable {α : Type}

theorem bc0_apply {t : Shape} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

theorem bc1_apply (h : (⟨1, ![100]⟩ : Shape).BroadcastsInDim ⟨2, ![100, 1]⟩ ![0]) (x : (⟨1, ![100]⟩ : Shape).Idx → α)
    (e : Fin 100) (z : Fin 1) : broadcastInDim ⟨2, ![100, 1]⟩ ![0] h x (ix2 e z) = x (ix1 e) :=
  broadcastInDim_apply ![0] h x (ix2 e z) (ix1 e) (fun a => by
    match a with
    | ⟨0, _⟩ => rfl)

theorem bc2_apply (h : (⟨2, ![100, 1]⟩ : Shape).BroadcastsInDim ⟨2, ![100, 16]⟩ ![0, 1]) (x : (⟨2, ![100, 1]⟩ : Shape).Idx → α)
    (e : Fin 100) (j : Fin 16) : broadcastInDim ⟨2, ![100, 16]⟩ ![0, 1] h x (ix2 e j) = x (ix2 e 0) :=
  broadcastInDim_apply ![0, 1] h x (ix2 e j) (ix2 e 0) (fun a => by
    match a with
    | ⟨0, _⟩ => rfl
    | ⟨1, _⟩ => rfl)

theorem bc3_apply (h : (⟨2, ![100, 16]⟩ : Shape).BroadcastsInDim ⟨3, ![100, 16, 1]⟩ ![0, 1]) (x : (⟨2, ![100, 16]⟩ : Shape).Idx → α)
    (e : Fin 100) (j : Fin 16) (z : Fin 1) : broadcastInDim ⟨3, ![100, 16, 1]⟩ ![0, 1] h x (ix3 e j z) = x (ix2 e j) :=
  broadcastInDim_apply ![0, 1] h x (ix3 e j z) (ix2 e j) (fun a => by
    match a with
    | ⟨0, _⟩ => rfl
    | ⟨1, _⟩ => rfl)

theorem cat2_left (A B : (⟨3, ![100, 16, 1]⟩ : Shape).Idx → α)
    (h : Shape.Concatenates [⟨3, ![100, 16, 1]⟩, ⟨3, ![100, 16, 1]⟩] ⟨3, ![100, 16, 2]⟩ 2) (e : Fin 100) (j : Fin 16) :
    concatenate ⟨3, ![100, 16, 2]⟩ 2 [⟨⟨3, ![100, 16, 1]⟩, A⟩, ⟨⟨3, ![100, 16, 1]⟩, B⟩] h (ix3 e j 0) = A (ix3 e j 0) :=
  concatenate_pair_apply_left (t := ⟨3, ![100, 16, 2]⟩) (s₁ := ⟨3, ![100, 16, 1]⟩) (s₂ := ⟨3, ![100, 16, 1]⟩) 2 A B h (ix3 e j 0) rfl
    (ix3 e j 0) (fun b => by
      match b with
      | ⟨0, _⟩ => rfl
      | ⟨1, _⟩ => rfl
      | ⟨2, _⟩ => rfl)

theorem cat2_right (A B : (⟨3, ![100, 16, 1]⟩ : Shape).Idx → α)
    (h : Shape.Concatenates [⟨3, ![100, 16, 1]⟩, ⟨3, ![100, 16, 1]⟩] ⟨3, ![100, 16, 2]⟩ 2) (e : Fin 100) (j : Fin 16) :
    concatenate ⟨3, ![100, 16, 2]⟩ 2 [⟨⟨3, ![100, 16, 1]⟩, A⟩, ⟨⟨3, ![100, 16, 1]⟩, B⟩] h (ix3 e j 1) = B (ix3 e j 0) :=
  concatenate_pair_apply_right (t := ⟨3, ![100, 16, 2]⟩) (s₁ := ⟨3, ![100, 16, 1]⟩) (s₂ := ⟨3, ![100, 16, 1]⟩) 2 A B h (ix3 e j 1) rfl rfl
    (ix3 e j 0) (fun b hb => by
      match b with
      | ⟨0, _⟩ => rfl
      | ⟨1, _⟩ => rfl
      | ⟨2, _⟩ => exact absurd (Fin.ext rfl) hb) rfl

end reads

theorem wrap_id (w n : BitVec 32) (hw : w.toNat < 2 ^ 31) :
    Scalar.select (IntOp.cmpi .slt w 0#32) (IntOp.addi w n) w = w := by
  have h : ¬ (IntOp.cmpi .slt w 0#32 = 1#1) := by
    rw [StableHlo.Predicate.slt_iff_toNat hw (by decide)]
    simp
  exact if_neg h

theorem zero_splat {t : Shape} (Z : t.Idx → EReal) (C : (⟨0, ![]⟩ : Shape).Idx → EReal)
    {b : (⟨0, ![]⟩ : Shape).BroadcastsInDim t ![]}
    (hc : C = constant (F := Ideal) ⟨0, ![]⟩ .f32 0x00000000#32) (hz : Z = broadcastInDim t ![] b C) (i : t.Idx) : Z i = 0 := by
  subst hc hz
  rw [bc0_apply]
  exact Ideal.ofBits_zero_f32

theorem idx_words {RS A1 : IVec ⟨2, ![100, 16]⟩ 32}
    {X0 : IVec ⟨1, ![100]⟩ 32} {X1 X3 X5 X6 X7 : IVec ⟨2, ![100, 1]⟩ 32} {X4 : IVec ⟨2, ![100, 1]⟩ 1}
    {C0 C100 C0' C64 : IVec ⟨0, ![]⟩ 32}
    {X8 X10 X11 X12 X13 : IVec ⟨2, ![100, 16]⟩ 32} {X9 : IVec ⟨2, ![100, 16]⟩ 1}
    {X14 X15 : IVec ⟨3, ![100, 16, 1]⟩ 32} {X16 : IVec ⟨3, ![100, 16, 2]⟩ 32}
    {b1 : (⟨1, ![100]⟩ : Shape).BroadcastsInDim ⟨2, ![100, 1]⟩ ![0]}
    {b3 : (⟨0, ![]⟩ : Shape).BroadcastsInDim ⟨2, ![100, 1]⟩ ![]}
    {b8 : (⟨0, ![]⟩ : Shape).BroadcastsInDim ⟨2, ![100, 16]⟩ ![]}
    {b13 : (⟨2, ![100, 1]⟩ : Shape).BroadcastsInDim ⟨2, ![100, 16]⟩ ![0, 1]}
    {b14 : (⟨2, ![100, 16]⟩ : Shape).BroadcastsInDim ⟨3, ![100, 16, 1]⟩ ![0, 1]}
    {cc : Shape.Concatenates [⟨3, ![100, 16, 1]⟩, ⟨3, ![100, 16, 1]⟩] ⟨3, ![100, 16, 2]⟩ 2}
    (ha1 : A1 = RS)
    (h0 : X0 = iotaInDim ⟨1, ![100]⟩ 32 0)
    (h1 : X1 = broadcastInDim ⟨2, ![100, 1]⟩ ![0] b1 X0)
    (hc : C0 = constantI ⟨0, ![]⟩ 32 0#32) (h3 : X3 = broadcastInDim ⟨2, ![100, 1]⟩ ![] b3 C0)
    (h4 : X4 = cmpi .slt X1 X3)
    (hc0 : C100 = constantI ⟨0, ![]⟩ 32 100#32) (h5 : X5 = broadcastInDim ⟨2, ![100, 1]⟩ ![] b3 C100)
    (h6 : X6 = addi X1 X5) (h7 : X7 = select X4 X6 X1)
    (hc1 : C0' = constantI ⟨0, ![]⟩ 32 0#32) (h8 : X8 = broadcastInDim ⟨2, ![100, 16]⟩ ![] b8 C0')
    (h9 : X9 = cmpi .slt A1 X8)
    (hc2 : C64 = constantI ⟨0, ![]⟩ 32 64#32) (h10 : X10 = broadcastInDim ⟨2, ![100, 16]⟩ ![] b8 C64)
    (h11 : X11 = addi A1 X10) (h12 : X12 = select X9 X11 A1)
    (h13 : X13 = broadcastInDim ⟨2, ![100, 16]⟩ ![0, 1] b13 X7)
    (h14 : X14 = broadcastInDim ⟨3, ![100, 16, 1]⟩ ![0, 1] b14 X13)
    (h15 : X15 = broadcastInDim ⟨3, ![100, 16, 1]⟩ ![0, 1] b14 X12)
    (h16 : X16 = concatenate ⟨3, ![100, 16, 2]⟩ 2 [⟨⟨3, ![100, 16, 1]⟩, X14⟩, ⟨⟨3, ![100, 16, 1]⟩, X15⟩] cc)
    (hcol : ∀ i, (RS i).toNat < 64) (e : Fin 100) (j : Fin 16) :
    (X16 (ix3 e j 0)).toInt = e.val ∧ (X16 (ix3 e j 1)).toInt = (RS (ix2 e j)).toNat := by
  subst ha1 h0 h1 hc h3 h4 hc0 h5 h6 h7 hc1 h8 h9 hc2 h10 h11 h12 h13 h14 h15 h16
  have he := e.isLt
  constructor
  · rw [cat2_left, bc3_apply, bc2_apply]
    have e1 : broadcastInDim ⟨2, ![100, 1]⟩ ![0] b1 (iotaInDim ⟨1, ![100]⟩ 32 0) (ix2 e 0) = BitVec.ofNat 32 e.val :=
      bc1_apply b1 _ e 0
    have e3 : broadcastInDim ⟨2, ![100, 1]⟩ ![] b3 (constantI ⟨0, ![]⟩ 32 0#32) (ix2 e 0) = 0#32 := bc0_apply b3 _ _
    show (Scalar.select (IntOp.cmpi .slt (broadcastInDim ⟨2, ![100, 1]⟩ ![0] b1 (iotaInDim ⟨1, ![100]⟩ 32 0) (ix2 e 0))
        (broadcastInDim ⟨2, ![100, 1]⟩ ![] b3 (constantI ⟨0, ![]⟩ 32 0#32) (ix2 e 0)))
      (IntOp.addi (broadcastInDim ⟨2, ![100, 1]⟩ ![0] b1 (iotaInDim ⟨1, ![100]⟩ 32 0) (ix2 e 0))
        (broadcastInDim ⟨2, ![100, 1]⟩ ![] b3 (constantI ⟨0, ![]⟩ 32 100#32) (ix2 e 0)))
      (broadcastInDim ⟨2, ![100, 1]⟩ ![0] b1 (iotaInDim ⟨1, ![100]⟩ 32 0) (ix2 e 0))).toInt = (e.val : Int)
    rw [e1, e3, wrap_id _ _ (by rw [BitVec.toNat_ofNat]; omega), StableHlo.Predicate.toInt_ofNat_small _ (by omega)]
  · rw [cat2_right, bc3_apply]
    have e8 : broadcastInDim ⟨2, ![100, 16]⟩ ![] b8 (constantI ⟨0, ![]⟩ 32 0#32) (ix2 e j) = 0#32 := bc0_apply b8 _ _
    have hlt := hcol (ix2 e j)
    show (Scalar.select (IntOp.cmpi .slt (A1 (ix2 e j)) (broadcastInDim ⟨2, ![100, 16]⟩ ![] b8 (constantI ⟨0, ![]⟩ 32 0#32) (ix2 e j)))
      (IntOp.addi (A1 (ix2 e j)) (broadcastInDim ⟨2, ![100, 16]⟩ ![] b8 (constantI ⟨0, ![]⟩ 32 64#32) (ix2 e j)))
      (A1 (ix2 e j))).toInt = ((A1 (ix2 e j)).toNat : Int)
    rw [e8, wrap_id _ _ (by omega), StableHlo.Predicate.toInt_eq_toNat_of_lt (by omega)]

def scDims : ScatterDims ⟨3, ![100, 64, 8]⟩ ⟨3, ![100, 16, 2]⟩ ⟨3, ![100, 16, 8]⟩ where
  updateWindowDims := [2]
  insertedWindowDims := [0, 1]
  scatterDimsToOperandDims := [0, 1]
  indexVectorDim := 2
  wf := by decide

theorem sc_siIdx (u : (⟨3, ![100, 16, 8]⟩ : Shape).Idx) (k : Fin 2) : scDims.siIdx u k = ix3 (u 0) (u 1) k := by
  funext b
  match b with
  | ⟨0, _⟩ => rfl
  | ⟨1, _⟩ => rfl
  | ⟨2, _⟩ => rfl

theorem sc_start0 (u : (⟨3, ![100, 16, 8]⟩ : Shape).Idx) (idx : IVec ⟨3, ![100, 16, 2]⟩ 32) :
    scDims.start u idx 0 = (idx (ix3 (u 0) (u 1) 0)).toInt := by
  show (idx (scDims.siIdx u (0 : Fin 2))).toInt = _
  rw [sc_siIdx]
  rfl

theorem sc_start1 (u : (⟨3, ![100, 16, 8]⟩ : Shape).Idx) (idx : IVec ⟨3, ![100, 16, 2]⟩ 32) :
    scDims.start u idx 1 = (idx (ix3 (u 0) (u 1) 1)).toInt := by
  show (idx (scDims.siIdx u (1 : Fin 2))).toInt = _
  rw [sc_siIdx]
  rfl

theorem sc_start2 (u : (⟨3, ![100, 16, 8]⟩ : Shape).Idx) (idx : IVec ⟨3, ![100, 16, 2]⟩ 32) :
    scDims.start u idx 2 = 0 := rfl

theorem sc_window0 (u : (⟨3, ![100, 16, 8]⟩ : Shape).Idx) : scDims.window u 0 = 0 := rfl
theorem sc_window1 (u : (⟨3, ![100, 16, 8]⟩ : Shape).Idx) : scDims.window u 1 = 0 := rfl
theorem sc_window2 (u : (⟨3, ![100, 16, 8]⟩ : Shape).Idx) : scDims.window u 2 = (u 2).val := rfl

theorem sc_resultIdx (idx : IVec ⟨3, ![100, 16, 2]⟩ 32) (u : (⟨3, ![100, 16, 8]⟩ : Shape).Idx) (r cl : Nat) (hr : r < 100) (hcl : cl < 64)
    (h0 : (idx (ix3 (u 0) (u 1) 0)).toInt = r) (h1 : (idx (ix3 (u 0) (u 1) 1)).toInt = cl) :
    scDims.resultIdx? u idx = some (ix3 ⟨r, hr⟩ ⟨cl, hcl⟩ (u 2)) := by
  have s0 : scDims.start u idx 0 + scDims.window u 0 = (r : Int) := by rw [sc_start0, sc_window0, h0]; simp
  have s1 : scDims.start u idx 1 + scDims.window u 1 = (cl : Int) := by rw [sc_start1, sc_window1, h1]; simp
  have s2 : scDims.start u idx 2 + scDims.window u 2 = ((u 2).val : Int) := by rw [sc_start2, sc_window2]; simp
  have h8 : (u 2).val < 8 := (u 2).isLt
  have H : ∀ a : Fin 3, 0 ≤ scDims.start u idx a + scDims.window u a ∧
      scDims.start u idx a + scDims.window u a < ((⟨3, ![100, 64, 8]⟩ : Shape).size a : Nat) := by
    intro a
    match a with
    | ⟨0, _⟩ => show 0 ≤ scDims.start u idx 0 + scDims.window u 0 ∧ scDims.start u idx 0 + scDims.window u 0 < ((100 : Nat) : Int); rw [s0]; omega
    | ⟨1, _⟩ => show 0 ≤ scDims.start u idx 1 + scDims.window u 1 ∧ scDims.start u idx 1 + scDims.window u 1 < ((64 : Nat) : Int); rw [s1]; omega
    | ⟨2, _⟩ => show 0 ≤ scDims.start u idx 2 + scDims.window u 2 ∧ scDims.start u idx 2 + scDims.window u 2 < ((8 : Nat) : Int); rw [s2]; omega
  unfold ScatterDims.resultIdx?
  rw [dif_pos H]
  congr 1
  funext a
  match a with
  | ⟨0, _⟩ => exact Fin.ext (by show (scDims.start u idx 0 + scDims.window u 0).toNat = r; rw [s0]; simp)
  | ⟨1, _⟩ => exact Fin.ext (by show (scDims.start u idx 1 + scDims.window u 1).toNat = cl; rw [s1]; simp)
  | ⟨2, _⟩ => exact Fin.ext (by show (scDims.start u idx 2 + scDims.window u 2).toNat = (u 2).val; rw [s2]; simp)

set_option backward.isDefEq.respectTransparency.types false in

theorem sc_entry (X : (⟨3, ![100, 64, 8]⟩ : Shape).Idx → EReal) (idx : IVec ⟨3, ![100, 16, 2]⟩ 32)
    (U : (⟨3, ![100, 16, 8]⟩ : Shape).Idx → EReal) (col : Fin 100 → Fin 16 → Nat)
    (hX : ∀ i, X i = 0)
    (h0 : ∀ (e : Fin 100) (j : Fin 16), (idx (ix3 e j 0)).toInt = e.val)
    (h1 : ∀ (e : Fin 100) (j : Fin 16), (idx (ix3 e j 1)).toInt = col e j)
    (hc : ∀ e j, col e j < 64) (e : Fin 100) (f : Fin 64) (o : Fin 8) :
    Ideal.hostScatterAdd scDims X idx U (ix3 e f o) = ∑ j : Fin 16, if col e j = f.val then U (ix3 e j o) else 0 := by
  unfold Ideal.hostScatterAdd
  rw [hX, zero_add, ← Finset.sum_filter]
  symm
  refine Finset.sum_bij (fun j _ => ix3 e j o) ?_ ?_ ?_ ?_
  · intro j hj
    rw [Finset.mem_filter] at hj ⊢
    refine ⟨Finset.mem_univ _, ?_⟩
    rw [sc_resultIdx idx (ix3 e j o) e.val (col e j) e.isLt (hc e j) (h0 e j) (h1 e j)]
    refine congrArg some (funext fun a => ?_)
    match a with
    | ⟨0, _⟩ => rfl
    | ⟨1, _⟩ => exact Fin.ext hj.2
    | ⟨2, _⟩ => rfl
  · intro j1 _ j2 _ h
    exact congrFun h 1
  · intro u hu
    rw [Finset.mem_filter] at hu
    have hr := sc_resultIdx idx u (u 0).val (col (u 0) (u 1)) (u 0).isLt (hc _ _) (h0 (u 0) (u 1)) (h1 (u 0) (u 1))
    have h2 := hu.2
    rw [hr] at h2
    have h3 := Option.some.inj h2
    have a0 : (u 0).val = e.val := congrArg Fin.val (congrFun h3 0)
    have a1 : col (u 0) (u 1) = f.val := congrArg Fin.val (congrFun h3 1)
    have a2 : u 2 = o := congrFun h3 2
    have a0' : u 0 = e := Fin.ext a0
    refine ⟨u 1, ?_, ?_⟩
    · rw [Finset.mem_filter]
      refine ⟨Finset.mem_univ _, ?_⟩
      rw [← a0']; exact a1
    · funext a
      match a with
      | ⟨0, _⟩ => exact a0'.symm
      | ⟨1, _⟩ => rfl
      | ⟨2, _⟩ => exact a2.symm
  · intro j _
    rfl

theorem scat_core {RS : IVec ⟨2, ![100, 16]⟩ 32} {U A2 : (⟨3, ![100, 16, 8]⟩ : Shape).Idx → EReal}
    {X2 X17 : (⟨3, ![100, 64, 8]⟩ : Shape).Idx → EReal} {X16 : IVec ⟨3, ![100, 16, 2]⟩ 32} {Cz : (⟨0, ![]⟩ : Shape).Idx → EReal}
    {bz : (⟨0, ![]⟩ : Shape).BroadcastsInDim ⟨3, ![100, 64, 8]⟩ ![]}
    (ha2 : A2 = U)
    (hcz : Cz = constant (F := Ideal) ⟨0, ![]⟩ .f32 0x00000000#32) (h2 : X2 = broadcastInDim ⟨3, ![100, 64, 8]⟩ ![] bz Cz)
    (h17 : X17 = Host.scatterAdd (F := Ideal) (φ := .f32) scDims X2 X16 A2)
    (hw : ∀ (e : Fin 100) (j : Fin 16), (X16 (ix3 e j 0)).toInt = e.val ∧ (X16 (ix3 e j 1)).toInt = (RS (ix2 e j)).toNat)
    (hcol : ∀ i, (RS i).toNat < 64) (e f o : Nat) (he : e < 100) (hf : f < 64) (ho : o < 8) :
    at3 X17 e f o = ∑ j ∈ Finset.range 16, (if colOf RS e j = f then at3 U e j o else 0) := by
  subst ha2
  have hs := sc_entry X2 X16 A2 (fun E J => (RS (ix2 E J)).toNat) (zero_splat X2 Cz hcz h2) (fun E J => (hw E J).1)
    (fun E J => (hw E J).2) (fun E J => hcol _) ⟨e, he⟩ ⟨f, hf⟩ ⟨o, ho⟩
  rw [Finset.sum_range]
  refine (at3_ix3 X17 ⟨e, he⟩ ⟨f, hf⟩ ⟨o, ho⟩).trans ?_
  rw [h17]
  refine hs.trans (Finset.sum_congr rfl fun J _ => ?_)
  have hc1 : colOf RS e J.val = (RS (ix2 ⟨e, he⟩ J)).toNat := by
    unfold colOf; rw [dif_pos ⟨he, J.isLt⟩]
  have hu1 : at3 A2 e J.val o = A2 (ix3 ⟨e, he⟩ J ⟨o, ho⟩) := at3_ix3 A2 ⟨e, he⟩ J ⟨o, ho⟩
  rw [hc1, hu1]

variable (m : (ℓ : Loc nD τ sig) → Buf (Elt Ideal) ℓ) (c : Dev nD)

-- the scattered first encoder weight at (e, f, o): the sum over the sampled positions j whose column is f of the weight (e, j, o)
theorem scat_entry (hcol : ∀ i : S100x16.Idx, ((m ((c : Thread nD τ).loc main_arg1) : S100x16.Idx → BitVec 32) i).toNat < 64)
    (e f o : Nat) (he : e < 100) (hf : f < 64) (ho : o < 8) :
    at3 (L m c (Proc.devRef .tc main_v17) : S100x64x8.Idx → EReal) e f o
      = ∑ j ∈ Finset.range 16, (if colOf (m ((c : Thread nD τ).loc main_arg1)) e j = f
          then at3 (m ((c : Thread nD τ).loc main_arg2) : S100x16x8.Idx → EReal) e j o else 0) :=
  scat_core (kept m c main_arg2 (by decide)) (nul m c 2 rfl (by decide)) (una m c 3 rfl (by decide) (by decide)) (ter m c 22 rfl (by decide) (by decide) (by decide) (by decide))
    (idx_words (kept m c main_arg1 (by decide)) (nul m c 0 rfl (by decide)) (una m c 1 rfl (by decide) (by decide)) (nul m c 4 rfl (by decide)) (una m c 5 rfl (by decide) (by decide)) (bin m c 6 rfl (by decide) (by decide) (by decide))
      (nul m c 7 rfl (by decide)) (una m c 8 rfl (by decide) (by decide)) (bin m c 9 rfl (by decide) (by decide) (by decide)) (ter m c 10 rfl (by decide) (by decide) (by decide) (by decide)) (nul m c 11 rfl (by decide)) (una m c 12 rfl (by decide) (by decide)) (bin m c 13 rfl (by decide) (by decide) (by decide))
      (nul m c 14 rfl (by decide)) (una m c 15 rfl (by decide) (by decide)) (bin m c 16 rfl (by decide) (by decide) (by decide)) (ter m c 17 rfl (by decide) (by decide) (by decide) (by decide)) (una m c 18 rfl (by decide) (by decide)) (una m c 19 rfl (by decide) (by decide)) (una m c 20 rfl (by decide) (by decide)) (bin m c 21 rfl (by decide) (by decide) (by decide)) hcol)
    hcol e f o he hf ho

-- diagonal block k / 64 of group g is the scattered weight of estimator 4 g + k / 64
theorem w1_entry (hcol : ∀ i : S100x16.Idx, ((m ((c : Thread nD τ).loc main_arg1) : S100x16.Idx → BitVec 32) i).toNat < 64) (g k n : Nat) (hg : g < 25) (hk : k < 256) (hn : n < 32) :
    at3 (V m c main_v58 : S25x256x32.Idx → EReal) g k n
      = if k / 64 = n / 8 then ∑ j ∈ Finset.range 16, (if colOf (m ((c : Thread nD τ).loc main_arg1)) (4 * g + k / 64) j = k % 64
          then at3 (m ((c : Thread nD τ).loc main_arg2) : S100x16x8.Idx → EReal) (4 * g + k / 64) j (n % 8) else 0) else 0 := by
  rw [V_L]
  refine (diag_entry rfl rfl rfl
    (rsh m c 41 rfl (by decide) (by decide))
    (una m c 42 rfl (by decide) (by decide))
    (rsh m c 43 rfl (by decide) (by decide))
    (zero_piece (nul m c 44 rfl (by decide)) (una m c 45 rfl (by decide) (by decide)))
    (zero_piece (nul m c 46 rfl (by decide)) (una m c 47 rfl (by decide) (by decide)))
    (zero_piece (nul m c 48 rfl (by decide)) (una m c 49 rfl (by decide) (by decide)))
    (cat4 m c 50 rfl (by decide) (by decide) (by decide) (by decide) (by decide))
    (zero_piece (nul m c 51 rfl (by decide)) (una m c 52 rfl (by decide) (by decide)))
    (una m c 53 rfl (by decide) (by decide))
    (rsh m c 54 rfl (by decide) (by decide))
    (zero_piece (nul m c 55 rfl (by decide)) (una m c 56 rfl (by decide) (by decide)))
    (zero_piece (nul m c 57 rfl (by decide)) (una m c 58 rfl (by decide) (by decide)))
    (cat4 m c 59 rfl (by decide) (by decide) (by decide) (by decide) (by decide))
    (zero_piece (nul m c 60 rfl (by decide)) (una m c 61 rfl (by decide) (by decide)))
    (zero_piece (nul m c 62 rfl (by decide)) (una m c 63 rfl (by decide) (by decide)))
    (una m c 64 rfl (by decide) (by decide))
    (rsh m c 65 rfl (by decide) (by decide))
    (zero_piece (nul m c 66 rfl (by decide)) (una m c 67 rfl (by decide) (by decide)))
    (cat4 m c 68 rfl (by decide) (by decide) (by decide) (by decide) (by decide))
    (zero_piece (nul m c 69 rfl (by decide)) (una m c 70 rfl (by decide) (by decide)))
    (zero_piece (nul m c 71 rfl (by decide)) (una m c 72 rfl (by decide) (by decide)))
    (zero_piece (nul m c 73 rfl (by decide)) (una m c 74 rfl (by decide) (by decide)))
    (una m c 75 rfl (by decide) (by decide))
    (rsh m c 76 rfl (by decide) (by decide))
    (cat4 m c 77 rfl (by decide) (by decide) (by decide) (by decide) (by decide))
    (cat4 m c 78 rfl (by decide) (by decide) (by decide) (by decide) (by decide))
    (una m c 79 rfl (by decide) (by decide))
    g k n hg hk hn).trans ?_
  rw [scat_entry m c hcol (4 * g + k / 64) (k % 64) (n % 8) (by omega) (by omega) (by omega)]

end Cert.KernelIdeal.HostVal

end
-- ==== Proof.HostW35.lean ====
import proofs.«417456_j29695403885050_3_alg».proof.Proof.HostLine
import proofs.«417456_j29695403885050_3_alg».proof.Proof.LibDiag

set_option maxRecDepth 8000

noncomputable section

namespace Cert.KernelIdeal.HostVal

open Cert.KernelIdeal Cert.KernelIdeal.Gen Cert.KernelIdeal.Hand Cert.KernelIdeal.HostLine Cert.RanSpec Cert.Diag
open Idealize.ShloMosaic Idealize.ShloMosaic.ValueIdx Idealize.ShloMosaic.TcCoe Idealize.SL.Sem

variable (m : (ℓ : Loc nD τ sig) → Buf (Elt Ideal) ℓ) (c : Dev nD)

-- diagonal block k / 8 of group g is the second encoder weight of estimator 4 g + k / 8
theorem w3_entry (g k n : Nat) (hg : g < 25) (hk : k < 32) (hn : n < 16) :
    at3 (V m c main_v85 : S25x32x16.Idx → EReal) g k n
      = if k / 8 = n / 4 then at3 (m ((c : Thread nD τ).loc main_arg4) : S100x8x4.Idx → EReal) (4 * g + k / 8) (k % 8) (n % 4) else 0 := by
  rw [V_L]
  refine (diag_entry rfl rfl rfl
    (rsh m c 80 rfl (by decide) (by decide))
    (una m c 81 rfl (by decide) (by decide))
    (rsh m c 82 rfl (by decide) (by decide))
    (zero_piece (nul m c 83 rfl (by decide)) (una m c 84 rfl (by decide) (by decide)))
    (zero_piece (nul m c 85 rfl (by decide)) (una m c 86 rfl (by decide) (by decide)))
    (zero_piece (nul m c 87 rfl (by decide)) (una m c 88 rfl (by decide) (by decide)))
    (cat4 m c 89 rfl (by decide) (by decide) (by decide) (by decide) (by decide))
    (zero_piece (nul m c 90 rfl (by decide)) (una m c 91 rfl (by decide) (by decide)))
    (una m c 92 rfl (by decide) (by decide))
    (rsh m c 93 rfl (by decide) (by decide))
    (zero_piece (nul m c 94 rfl (by decide)) (una m c 95 rfl (by decide) (by decide)))
    (zero_piece (nul m c 96 rfl (by decide)) (una m c 97 rfl (by decide) (by decide)))
    (cat4 m c 98 rfl (by decide) (by decide) (by decide) (by decide) (by decide))
    (zero_piece (nul m c 99 rfl (by decide)) (una m c 100 rfl (by decide) (by decide)))
    (zero_piece (nul m c 101 rfl (by decide)) (una m c 102 rfl (by decide) (by decide)))
    (una m c 103 rfl (by decide) (by decide))
    (rsh m c 104 rfl (by decide) (by decide))
    (zero_piece (nul m c 105 rfl (by decide)) (una m c 106 rfl (by decide) (by decide)))
    (cat4 m c 107 rfl (by decide) (by decide) (by decide) (by decide) (by decide))
    (zero_piece (nul m c 108 rfl (by decide)) (una m c 109 rfl (by decide) (by decide)))
    (zero_piece (nul m c 110 rfl (by decide)) (una m c 111 rfl (by decide) (by decide)))
    (zero_piece (nul m c 112 rfl (by decide)) (una m c 113 rfl (by decide) (by decide)))
    (una m c 114 rfl (by decide) (by decide))
    (rsh m c 115 rfl (by decide) (by decide))
    (cat4 m c 116 rfl (by decide) (by decide) (by decide) (by decide) (by decide))
    (cat4 m c 117 rfl (by decide) (by decide) (by decide) (by decide) (by decide))
    (una m c 118 rfl (by decide) (by decide))
    g k n hg hk hn).trans ?_
  rw [kept m c main_arg4 (by decide)]

-- diagonal block k / 4 of group g is the latent weight of estimator 4 g + k / 4
theorem w5_entry (g k n : Nat) (hg : g < 25) (hk : k < 16) (hn : n < 32) :
    at3 (V m c main_v112 : S25x16x32.Idx → EReal) g k n
      = if k / 4 = n / 8 then at3 (m ((c : Thread nD τ).loc main_arg6) : S100x4x8.Idx → EReal) (4 * g + k / 4) (k % 4) (n % 8) else 0 := by
  rw [V_L]
  refine (diag_entry rfl rfl rfl
    (rsh m c 119 rfl (by decide) (by decide))
    (una m c 120 rfl (by decide) (by decide))
    (rsh m c 121 rfl (by decide) (by decide))
    (zero_piece (nul m c 122 rfl (by decide)) (una m c 123 rfl (by decide) (by decide)))
    (zero_piece (nul m c 124 rfl (by decide)) (una m c 125 rfl (by decide) (by decide)))
    (zero_piece (nul m c 126 rfl (by decide)) (una m c 127 rfl (by decide) (by decide)))
    (cat4 m c 128 rfl (by decide) (by decide) (by decide) (by decide) (by decide))
    (zero_piece (nul m c 129 rfl (by decide)) (una m c 130 rfl (by decide) (by decide)))
    (una m c 131 rfl (by decide) (by decide))
    (rsh m c 132 rfl (by decide) (by decide))
    (zero_piece (nul m c 133 rfl (by decide)) (una m c 134 rfl (by decide) (by decide)))
    (zero_piece (nul m c 135 rfl (by decide)) (una m c 136 rfl (by decide) (by decide)))
    (cat4 m c 137 rfl (by decide) (by decide) (by decide) (by decide) (by decide))
    (zero_piece (nul m c 138 rfl (by decide)) (una m c 139 rfl (by decide) (by decide)))
    (zero_piece (nul m c 140 rfl (by decide)) (una m c 141 rfl (by decide) (by decide)))
    (una m c 142 rfl (by decide) (by decide))
    (rsh m c 143 rfl (by decide) (by decide))
    (zero_piece (nul m c 144 rfl (by decide)) (una m c 145 rfl (by decide) (by decide)))
    (cat4 m c 146 rfl (by decide) (by decide) (by decide) (by decide) (by decide))
    (zero_piece (nul m c 147 rfl (by decide)) (una m c 148 rfl (by decide) (by decide)))
    (zero_piece (nul m c 149 rfl (by decide)) (una m c 150 rfl (by decide) (by decide)))
    (zero_piece (nul m c 151 rfl (by decide)) (una m c 152 rfl (by decide) (by decide)))
    (una m c 153 rfl (by decide) (by decide))
    (rsh m c 154 rfl (by decide) (by decide))
    (cat4 m c 155 rfl (by decide) (by decide) (by decide) (by decide) (by decide))
    (cat4 m c 156 rfl (by decide) (by decide) (by decide) (by decide) (by decide))
    (una m c 157 rfl (by decide) (by decide))
    g k n hg hk hn).trans ?_
  rw [kept m c main_arg6 (by decide)]

end Cert.KernelIdeal.HostVal

end
-- ==== Proof.HostW7.lean ====
import proofs.«417456_j29695403885050_3_alg».proof.Proof.HostLine
import proofs.«417456_j29695403885050_3_alg».proof.Proof.LibDiag

set_option maxRecDepth 8192

noncomputable section

namespace Cert.KernelIdeal.HostVal

open Cert.KernelIdeal Cert.KernelIdeal.Gen Cert.KernelIdeal.Hand Cert.KernelIdeal.HostLine Cert.RanSpec Cert.Diag
open Idealize.ShloMosaic Idealize.ShloMosaic.ValueIdx Idealize.ShloMosaic.TcCoe Idealize.SL.Sem

variable (m : (ℓ : Loc nD τ sig) → Buf (Elt Ideal) ℓ) (c : Dev nD)

-- diagonal block k / 8 of group g is ( A | B ) for estimator 4 g + k / 8, A and B the two decoders' first weights
theorem w7_entry (g k n : Nat) (hg : g < 25) (hk : k < 32) (hn : n < 128) :
    at3 (V m c main_v139 : S25x32x128.Idx → EReal) g k n
      = if k / 8 = n / 32 then
          (if n % 32 < 16 then
            at3 (m ((c : Thread nD τ).loc main_arg8) : S100x8x16.Idx → EReal) (4 * g + k / 8) (k % 8) (n % 32)
           else at3 (m ((c : Thread nD τ).loc main_arg14) : S100x8x16.Idx → EReal) (4 * g + k / 8) (k % 8) (n % 32 - 16))
        else 0 := by
  rw [V_L]
  refine (diag_entry rfl rfl rfl
    (rsh m c 158 rfl (by decide) (by decide))
    (una m c 159 rfl (by decide) (by decide))
    (rsh m c 160 rfl (by decide) (by decide))
    (zero_piece (nul m c 161 rfl (by decide)) (una m c 162 rfl (by decide) (by decide)))
    (zero_piece (nul m c 163 rfl (by decide)) (una m c 164 rfl (by decide) (by decide)))
    (zero_piece (nul m c 165 rfl (by decide)) (una m c 166 rfl (by decide) (by decide)))
    (cat4 m c 167 rfl (by decide) (by decide) (by decide) (by decide) (by decide))
    (zero_piece (nul m c 168 rfl (by decide)) (una m c 169 rfl (by decide) (by decide)))
    (una m c 170 rfl (by decide) (by decide))
    (rsh m c 171 rfl (by decide) (by decide))
    (zero_piece (nul m c 172 rfl (by decide)) (una m c 173 rfl (by decide) (by decide)))
    (zero_piece (nul m c 174 rfl (by decide)) (una m c 175 rfl (by decide) (by decide)))
    (cat4 m c 176 rfl (by decide) (by decide) (by decide) (by decide) (by decide))
    (zero_piece (nul m c 177 rfl (by decide)) (una m c 178 rfl (by decide) (by decide)))
    (zero_piece (nul m c 179 rfl (by decide)) (una m c 180 rfl (by decide) (by decide)))
    (una m c 181 rfl (by decide) (by decide))
    (rsh m c 182 rfl (by decide) (by decide))
    (zero_piece (nul m c 183 rfl (by decide)) (una m c 184 rfl (by decide) (by decide)))
    (cat4 m c 185 rfl (by decide) (by decide) (by decide) (by decide) (by decide))
    (zero_piece (nul m c 186 rfl (by decide)) (una m c 187 rfl (by decide) (by decide)))
    (zero_piece (nul m c 188 rfl (by decide)) (una m c 189 rfl (by decide) (by decide)))
    (zero_piece (nul m c 190 rfl (by decide)) (una m c 191 rfl (by decide) (by decide)))
    (una m c 192 rfl (by decide) (by decide))
    (rsh m c 193 rfl (by decide) (by decide))
    (cat4 m c 194 rfl (by decide) (by decide) (by decide) (by decide) (by decide))
    (cat4 m c 195 rfl (by decide) (by decide) (by decide) (by decide) (by decide))
    (una m c 196 rfl (by decide) (by decide))
    g k n hg hk hn).trans ?_
  rw [bin m c 23 rfl (by decide) (by decide) (by decide), cat2_axis2 _ _ concatenates_S100x8x16_S100x8x16_S100x8x32_d2 rfl
    (4 * g + k / 8) (k % 8) (n % 32) (by omega) (by omega) (by omega), kept m c main_arg8 (by decide), kept m c main_arg14 (by decide)]

end Cert.KernelIdeal.HostVal

end
-- ==== Proof.HostW9.lean ====
import proofs.«417456_j29695403885050_3_alg».proof.Proof.HostLine
import proofs.«417456_j29695403885050_3_alg».proof.Proof.LibDiag

set_option maxRecDepth 8192

noncomputable section

namespace Cert.KernelIdeal.HostVal

open Cert.KernelIdeal Cert.KernelIdeal.Gen Cert.KernelIdeal.Hand Cert.KernelIdeal.HostLine Cert.RanSpec Cert.Diag
open Idealize.ShloMosaic Idealize.ShloMosaic.ValueIdx Idealize.ShloMosaic.TcCoe Idealize.SL.Sem

variable (m : (ℓ : Loc nD τ sig) → Buf (Elt Ideal) ℓ) (c : Dev nD)

-- diagonal block k / 32 of group g is ( A 0 ; 0 B ) for estimator 4 g + k / 32, A and B the two decoders' second weights
theorem w9_entry (g k n : Nat) (hg : g < 25) (hk : k < 128) (hn : n < 256) :
    at3 (V m c main_v166 : S25x128x256.Idx → EReal) g k n
      = if k / 32 = n / 64 then
          (if k % 32 < 16 then
            (if n % 64 < 32 then
              at3 (m ((c : Thread nD τ).loc main_arg10) : S100x16x32.Idx → EReal) (4 * g + k / 32) (k % 32) (n % 64)
             else 0)
           else
            (if n % 64 < 32 then 0
             else at3 (m ((c : Thread nD τ).loc main_arg16) : S100x16x32.Idx → EReal) (4 * g + k / 32) (k % 32 - 16)
               (n % 64 - 32)))
        else 0 := by
  rw [V_L]
  refine (diag_entry rfl rfl rfl
    (rsh m c 197 rfl (by decide) (by decide))
    (una m c 198 rfl (by decide) (by decide))
    (rsh m c 199 rfl (by decide) (by decide))
    (zero_piece (nul m c 200 rfl (by decide)) (una m c 201 rfl (by decide) (by decide)))
    (zero_piece (nul m c 202 rfl (by decide)) (una m c 203 rfl (by decide) (by decide)))
    (zero_piece (nul m c 204 rfl (by decide)) (una m c 205 rfl (by decide) (by decide)))
    (cat4 m c 206 rfl (by decide) (by decide) (by decide) (by decide) (by decide))
    (zero_piece (nul m c 207 rfl (by decide)) (una m c 208 rfl (by decide) (by decide)))
    (una m c 209 rfl (by decide) (by decide))
    (rsh m c 210 rfl (by decide) (by decide))
    (zero_piece (nul m c 211 rfl (by decide)) (una m c 212 rfl (by decide) (by decide)))
    (zero_piece (nul m c 213 rfl (by decide)) (una m c 214 rfl (by decide) (by decide)))
    (cat4 m c 215 rfl (by decide) (by decide) (by decide) (by decide) (by decide))
    (zero_piece (nul m c 216 rfl (by decide)) (una m c 217 rfl (by decide) (by decide)))
    (zero_piece (nul m c 218 rfl (by decide)) (una m c 219 rfl (by decide) (by decide)))
    (una m c 220 rfl (by decide) (by decide))
    (rsh m c 221 rfl (by decide) (by decide))
    (zero_piece (nul m c 222 rfl (by decide)) (una m c 223 rfl (by decide) (by decide)))
    (cat4 m c 224 rfl (by decide) (by decide) (by decide) (by decide) (by decide))
    (zero_piece (nul m c 225 rfl (by decide)) (una m c 226 rfl (by decide) (by decide)))
    (zero_piece (nul m c 227 rfl (by decide)) (una m c 228 rfl (by decide) (by decide)))
    (zero_piece (nul m c 229 rfl (by decide)) (una m c 230 rfl (by decide) (by decide)))
    (una m c 231 rfl (by decide) (by decide))
    (rsh m c 232 rfl (by decide) (by decide))
    (cat4 m c 233 rfl (by decide) (by decide) (by decide) (by decide) (by decide))
    (cat4 m c 234 rfl (by decide) (by decide) (by decide) (by decide) (by decide))
    (una m c 235 rfl (by decide) (by decide))
    g k n hg hk hn).trans ?_
  rw [pair_entry rfl rfl (zero_piece (nul m c 25 rfl (by decide)) (una m c 26 rfl (by decide) (by decide))) (zero_piece (nul m c 28 rfl (by decide)) (una m c 29 rfl (by decide) (by decide)))
    (bin m c 27 rfl (by decide) (by decide) (by decide)) (bin m c 30 rfl (by decide) (by decide) (by decide)) (bin m c 31 rfl (by decide) (by decide) (by decide))
    (4 * g + k / 32) (k % 32) (n % 64) (by omega) (by omega) (by omega),
    kept m c main_arg10 (by decide), kept m c main_arg16 (by decide)]

end Cert.KernelIdeal.HostVal

end
-- ==== Proof.HostW11.lean ====
import proofs.«417456_j29695403885050_3_alg».proof.Proof.HostLine
import proofs.«417456_j29695403885050_3_alg».proof.Proof.LibDiag

set_option maxRecDepth 8192

noncomputable section

namespace Cert.KernelIdeal.HostVal

open Cert.KernelIdeal Cert.KernelIdeal.Gen Cert.KernelIdeal.Hand Cert.KernelIdeal.HostLine Cert.RanSpec Cert.Diag
open Idealize.ShloMosaic Idealize.ShloMosaic.ValueIdx Idealize.ShloMosaic.TcCoe Idealize.SL.Sem

variable (m : (ℓ : Loc nD τ sig) → Buf (Elt Ideal) ℓ) (c : Dev nD)

-- diagonal block k / 64 of group g is ( A 0 ; 0 B ) for estimator 4 g + k / 64, A and B the two decoders' last weights
theorem w11_entry (g k n : Nat) (hg : g < 25) (hk : k < 256) (hn : n < 512) :
    at3 (V m c main_v193 : S25x256x512.Idx → EReal) g k n
      = if k / 64 = n / 128 then
          (if k % 64 < 32 then
            (if n % 128 < 64 then
              at3 (m ((c : Thread nD τ).loc main_arg12) : S100x32x64.Idx → EReal) (4 * g + k / 64) (k % 64) (n % 128)
             else 0)
           else
            (if n % 128 < 64 then 0
             else at3 (m ((c : Thread nD τ).loc main_arg18) : S100x32x64.Idx → EReal) (4 * g + k / 64) (k % 64 - 32)
               (n % 128 - 64)))
        else 0 := by
  rw [V_L]
  refine (diag_entry rfl rfl rfl
    (rsh m c 236 rfl (by decide) (by decide))
    (una m c 237 rfl (by decide) (by decide))
    (rsh m c 238 rfl (by decide) (by decide))
    (zero_piece (nul m c 239 rfl (by decide)) (una m c 240 rfl (by decide) (by decide)))
    (zero_piece (nul m c 241 rfl (by decide)) (una m c 242 rfl (by decide) (by decide)))
    (zero_piece (nul m c 243 rfl (by decide)) (una m c 244 rfl (by decide) (by decide)))
    (cat4 m c 245 rfl (by decide) (by decide) (by decide) (by decide) (by decide))
    (zero_piece (nul m c 246 rfl (by decide)) (una m c 247 rfl (by decide) (by decide)))
    (una m c 248 rfl (by decide) (by decide))
    (rsh m c 249 rfl (by decide) (by decide))
    (zero_piece (nul m c 250 rfl (by decide)) (una m c 251 rfl (by decide) (by decide)))
    (zero_piece (nul m c 252 rfl (by decide)) (una m c 253 rfl (by decide) (by decide)))
    (cat4 m c 254 rfl (by decide) (by decide) (by decide) (by decide) (by decide))
    (zero_piece (nul m c 255 rfl (by decide)) (una m c 256 rfl (by decide) (by decide)))
    (zero_piece (nul m c 257 rfl (by decide)) (una m c 258 rfl (by decide) (by decide)))
    (una m c 259 rfl (by decide) (by decide))
    (rsh m c 260 rfl (by decide) (by decide))
    (zero_piece (nul m c 261 rfl (by decide)) (una m c 262 rfl (by decide) (by decide)))
    (cat4 m c 263 rfl (by decide) (by decide) (by decide) (by decide) (by decide))
    (zero_piece (nul m c 264 rfl (by decide)) (una m c 265 rfl (by decide) (by decide)))
    (zero_piece (nul m c 266 rfl (by decide)) (una m c 267 rfl (by decide) (by decide)))
    (zero_piece (nul m c 268 rfl (by decide)) (una m c 269 rfl (by decide) (by decide)))
    (una m c 270 rfl (by decide) (by decide))
    (rsh m c 271 rfl (by decide) (by decide))
    (cat4 m c 272 rfl (by decide) (by decide) (by decide) (by decide) (by decide))
    (cat4 m c 273 rfl (by decide) (by decide) (by decide) (by decide) (by decide))
    (una m c 274 rfl (by decide) (by decide))
    g k n hg hk hn).trans ?_
  rw [pair_entry rfl rfl (zero_piece (nul m c 33 rfl (by decide)) (una m c 34 rfl (by decide) (by decide))) (zero_piece (nul m c 36 rfl (by decide)) (una m c 37 rfl (by decide) (by decide)))
    (bin m c 35 rfl (by decide) (by decide) (by decide)) (bin m c 38 rfl (by decide) (by decide) (by decide)) (bin m c 39 rfl (by decide) (by decide) (by decide))
    (4 * g + k / 64) (k % 64) (n % 128) (by omega) (by omega) (by omega),
    kept m c main_arg12 (by decide), kept m c main_arg18 (by decide)]

end Cert.KernelIdeal.HostVal

end
-- ==== Proof.HostBias.lean ====
import proofs.«417456_j29695403885050_3_alg».proof.Proof.HostLine
import proofs.«417456_j29695403885050_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostVal

open Cert.KernelIdeal Cert.KernelIdeal.Gen Cert.KernelIdeal.Hand Cert.KernelIdeal.HostLine Cert.RanSpec
open Idealize.ShloMosaic Idealize.ShloMosaic.ValueIdx Idealize.ShloMosaic.TcCoe Idealize.SL.Sem

theorem reshape_bcast_apply {α : Type} {E d G N : Nat} (x : (⟨2, ![E, d]⟩ : Shape).Idx → α)
    (hc : (⟨2, ![E, d]⟩ : Shape).ShapeCasts ⟨2, ![G, N]⟩)
    (hb : (⟨2, ![G, N]⟩ : Shape).BroadcastsInDim ⟨3, ![G, 1, N]⟩ ![0, 2])
    (g : Fin G) (n : Fin N) (e : Fin E) (o : Fin d) (h : e.val * d + o.val = g.val * N + n.val) :
    broadcastInDim ⟨3, ![G, 1, N]⟩ ![0, 2] hb (shapeCast ⟨2, ![G, N]⟩ x hc) (ix3 g (0 : Fin 1) n) = x (ix2 e o) := by
  have hg := g.isLt
  have hn := n.isLt
  have e1 := broadcastInDim_apply ![0, 2] hb (shapeCast ⟨2, ![G, N]⟩ x hc) (ix3 g (0 : Fin 1) n) (ix2 g n) (by
    intro a
    match a with
    | ⟨0, _⟩ =>
      show g.val = if G = 1 then 0 else g.val
      split
      · omega
      · rfl
    | ⟨1, _⟩ =>
      show n.val = if N = 1 then 0 else n.val
      split
      · omega
      · rfl)
  have e2 := shapeCast_apply x hc (ix2 g n) (ix2 e o) (by
    rw [Shape.rowMajor_val_two, Shape.rowMajor_val_two]
    exact h)
  exact e1.trans e2

theorem bias_entry {E d G N : Nat} {x : (⟨2, ![E, d]⟩ : Shape).Idx → EReal}
    {Y : (⟨2, ![G, N]⟩ : Shape).Idx → EReal} {Z : (⟨3, ![G, 1, N]⟩ : Shape).Idx → EReal}
    {hc : (⟨2, ![E, d]⟩ : Shape).ShapeCasts ⟨2, ![G, N]⟩}
    {hb : (⟨2, ![G, N]⟩ : Shape).BroadcastsInDim ⟨3, ![G, 1, N]⟩ ![0, 2]}
    (hY : Y = shapeCast _ x hc) (hZ : Z = broadcastInDim _ ![0, 2] hb Y) (hE : E = 4 * G) (hN : N = 4 * d)
    (g n : Nat) (hg : g < G) (hn : n < N) : at3 Z g 0 n = at2 x (4 * g + n / d) (n % d) := by
  subst hY hZ
  have hd : 0 < d := by omega
  have hq : n / d < 4 := (Nat.div_lt_iff_lt_mul hd).2 (by omega)
  have hr : n % d < d := Nat.mod_lt _ hd
  have he : 4 * g + n / d < E := by omega
  unfold at3 at2
  rw [dif_pos ⟨hg, Nat.one_pos, hn⟩, dif_pos ⟨he, hr⟩]
  refine reshape_bcast_apply x hc hb ⟨g, hg⟩ ⟨n, hn⟩ ⟨4 * g + n / d, he⟩ ⟨n % d, hr⟩ ?_
  show (4 * g + n / d) * d + n % d = g * N + n
  have h1 : n / d * d + n % d = n := Nat.div_add_mod' n d
  rw [hN, Nat.add_mul, Nat.add_assoc, h1, Nat.mul_assoc, Nat.mul_comm 4 (g * d), Nat.mul_assoc, Nat.mul_comm d 4]

theorem cat_entry {E a b c : Nat} (x₁ : (⟨2, ![E, a]⟩ : Shape).Idx → EReal) (x₂ : (⟨2, ![E, b]⟩ : Shape).Idx → EReal)
    (hcab : c = a + b)
    (h : Shape.Concatenates [(⟨2, ![E, a]⟩ : Shape), ⟨2, ![E, b]⟩] ⟨2, ![E, c]⟩ 1) (e o : Nat) (he : e < E) (ho : o < c) :
    at2 (concatenate ⟨2, ![E, c]⟩ 1 [⟨⟨2, ![E, a]⟩, x₁⟩, ⟨⟨2, ![E, b]⟩, x₂⟩] h) e o
      = if o < a then at2 x₁ e o else at2 x₂ e (o - a) := by
  unfold at2
  rw [dif_pos ⟨he, ho⟩]
  by_cases hlt : o < a
  · rw [if_pos hlt, dif_pos ⟨he, hlt⟩]
    refine concatenate_pair_apply_left (1 : Fin 2) x₁ x₂ h (ix2 ⟨e, he⟩ ⟨o, ho⟩) rfl (ix2 ⟨e, he⟩ ⟨o, hlt⟩) ?_
    intro k
    match k with
    | ⟨0, _⟩ => rfl
    | ⟨1, _⟩ => rfl
  · have hob : o - a < b := by omega
    rw [if_neg hlt, dif_pos ⟨he, hob⟩]
    refine concatenate_pair_apply_right (1 : Fin 2) x₁ x₂ h (ix2 ⟨e, he⟩ ⟨o, ho⟩) rfl rfl (ix2 ⟨e, he⟩ ⟨o - a, hob⟩) ?_ ?_
    · intro k hk
      match k, hk with
      | ⟨0, _⟩, _ => rfl
      | ⟨1, _⟩, hk => exact absurd rfl hk
    · show o - a + a = o
      omega

variable (m : (ℓ : Loc nD τ sig) → Buf (Elt Ideal) ℓ) (c : Dev nD)

-- a bias window holds four estimators' biases side by side: entry n of group g is estimator 4 g + n / d's at n % d

theorem b1_entry (g n : Nat) (hg : g < 25) (hn : n < 32) :
    at3 (V m c main_v195 : S25x1x32.Idx → EReal) g 0 n
      = at2 (m ((c : Thread nD τ).loc main_arg3) : S100x8.Idx → EReal) (4 * g + n / 8) (n % 8) := by
  rw [V_L]
  refine (bias_entry (rsh m c 275 rfl (by decide) (by decide)) (una m c 276 rfl (by decide) (by decide)) rfl rfl g n hg hn).trans ?_
  rw [kept m c main_arg3 (by decide)]

theorem b2_entry (g n : Nat) (hg : g < 25) (hn : n < 16) :
    at3 (V m c main_v197 : S25x1x16.Idx → EReal) g 0 n
      = at2 (m ((c : Thread nD τ).loc main_arg5) : S100x4.Idx → EReal) (4 * g + n / 4) (n % 4) := by
  rw [V_L]
  refine (bias_entry (rsh m c 277 rfl (by decide) (by decide)) (una m c 278 rfl (by decide) (by decide)) rfl rfl g n hg hn).trans ?_
  rw [kept m c main_arg5 (by decide)]

theorem b3_entry (g n : Nat) (hg : g < 25) (hn : n < 32) :
    at3 (V m c main_v199 : S25x1x32.Idx → EReal) g 0 n
      = at2 (m ((c : Thread nD τ).loc main_arg7) : S100x8.Idx → EReal) (4 * g + n / 8) (n % 8) := by
  rw [V_L]
  refine (bias_entry (rsh m c 279 rfl (by decide) (by decide)) (una m c 280 rfl (by decide) (by decide)) rfl rfl g n hg hn).trans ?_
  rw [kept m c main_arg7 (by decide)]

theorem b4_entry (g n : Nat) (hg : g < 25) (hn : n < 128) :
    at3 (V m c main_v201 : S25x1x128.Idx → EReal) g 0 n
      = if n % 32 < 16 then at2 (m ((c : Thread nD τ).loc main_arg9) : S100x16.Idx → EReal) (4 * g + n / 32) (n % 32)
        else at2 (m ((c : Thread nD τ).loc main_arg15) : S100x16.Idx → EReal) (4 * g + n / 32) (n % 32 - 16) := by
  rw [V_L]
  refine (bias_entry (rsh m c 281 rfl (by decide) (by decide)) (una m c 282 rfl (by decide) (by decide)) rfl rfl g n hg hn).trans ?_
  rw [bin m c 24 rfl (by decide) (by decide) (by decide),
    cat_entry _ _ rfl concatenates_S100x16_S100x16_S100x32_d1 (4 * g + n / 32) (n % 32) (by omega) (by omega), kept m c main_arg9 (by decide), kept m c main_arg15 (by decide)]

theorem b5_entry (g n : Nat) (hg : g < 25) (hn : n < 256) :
    at3 (V m c main_v203 : S25x1x256.Idx → EReal) g 0 n
      = if n % 64 < 32 then at2 (m ((c : Thread nD τ).loc main_arg11) : S100x32.Idx → EReal) (4 * g + n / 64) (n % 64)
        else at2 (m ((c : Thread nD τ).loc main_arg17) : S100x32.Idx → EReal) (4 * g + n / 64) (n % 64 - 32) := by
  rw [V_L]
  refine (bias_entry (rsh m c 283 rfl (by decide) (by decide)) (una m c 284 rfl (by decide) (by decide)) rfl rfl g n hg hn).trans ?_
  rw [bin m c 32 rfl (by decide) (by decide) (by decide),
    cat_entry _ _ rfl concatenates_S100x32_S100x32_S100x64_d1 (4 * g + n / 64) (n % 64) (by omega) (by omega), kept m c main_arg11 (by decide), kept m c main_arg17 (by decide)]

theorem b6_entry (g n : Nat) (hg : g < 25) (hn : n < 512) :
    at3 (V m c main_v205 : S25x1x512.Idx → EReal) g 0 n
      = if n % 128 < 64 then at2 (m ((c : Thread nD τ).loc main_arg13) : S100x64.Idx → EReal) (4 * g + n / 128) (n % 128)
        else at2 (m ((c : Thread nD τ).loc main_arg19) : S100x64.Idx → EReal) (4 * g + n / 128) (n % 128 - 64) := by
  rw [V_L]
  refine (bias_entry (rsh m c 285 rfl (by decide) (by decide)) (una m c 286 rfl (by decide) (by decide)) rfl rfl g n hg hn).trans ?_
  rw [bin m c 40 rfl (by decide) (by decide) (by decide),
    cat_entry _ _ rfl concatenates_S100x64_S100x64_S100x128_d1 (4 * g + n / 128) (n % 128) (by omega) (by omega), kept m c main_arg13 (by decide), kept m c main_arg19 (by decide)]

end Cert.KernelIdeal.HostVal

end
-- ==== Proof.AlgEnc.lean ====
import proofs.«417456_j29695403885050_3_alg».proof.Proof.Spec

noncomputable section

namespace Cert.RanSpec

open Idealize.ShloMosaic Idealize.ShloMosaic.ValueIdx

/-- Terms that vanish outside the window s ≤ k < s + d leave the window's sum. -/
theorem sum_window {M : Type*} [AddCommMonoid M] {N s d : Nat} (hN : s + d ≤ N) (f : Nat → M)
    (hf : ∀ k, k < N → ¬ (s ≤ k ∧ k < s + d) → f k = 0) :
    ∑ k ∈ Finset.range N, f k = ∑ i ∈ Finset.range d, f (s + i) := by
  have e := Finset.sum_Ico_eq_sum_range f s (s + d)
  rw [Nat.add_sub_cancel_left] at e
  rw [← e]
  exact (Finset.sum_subset (fun k hk => Finset.mem_range.mpr (by have := Finset.mem_Ico.mp hk; omega))
    fun k hk hk' => hf k (Finset.mem_range.mp hk) fun h => hk' (Finset.mem_Ico.mpr h)).symm

theorem blk_div {A q i : Nat} (hi : i < A) : (A * q + i) / A = q := by
  rw [Nat.mul_add_div (by omega), Nat.div_eq_of_lt hi, Nat.add_zero]

theorem blk_mod {A q i : Nat} (hi : i < A) : (A * q + i) % A = i := by
  rw [Nat.mul_add_mod, Nat.mod_eq_of_lt hi]

/-- A dense layer reads its input, its weight and its bias only at the positions it sums over. -/
theorem dense_congr {d : Nat} {h h' : Nat → EReal} {W W' : Nat → Nat → EReal} {B B' : Nat → EReal} {o o' : Nat}
    (hh : ∀ i, i < d → h i * W i o = h' i * W' i o') (hb : B o = B' o') : dense d h W B o = dense d h' W' B' o' := by
  unfold dense
  rw [hb]
  exact congrArg (· + B' o') (Finset.sum_congr rfl fun i hi => hh i (Finset.mem_range.mp hi))

/-- A dense layer whose column n has zero weight outside the rows s ≤ k < s + d is the dense layer of those rows. -/
theorem dense_window {N s d : Nat} (hN : s + d ≤ N) {h : Nat → EReal} {w : Nat → Nat → EReal} {bias : Nat → EReal} {n : Nat}
    (hw0 : ∀ k, k < N → ¬ (s ≤ k ∧ k < s + d) → w k n = 0) :
    dense N h w bias n = dense d (fun i => h (s + i)) (fun i => w (s + i)) bias n := by
  unfold dense
  rw [sum_window hN _ fun k hk hne => by rw [hw0 k hk hne, mul_zero]]

/-- Through a weight block-diagonal over blocks of A rows and B columns, column c of block q reads block q's rows and weight. -/
theorem dense_blockdiag {N N' A B : Nat} (hA : 0 < A) {h : Nat → EReal} {w : Nat → Nat → EReal} {bias : Nat → EReal}
    (V : Nat → Nat → Nat → EReal) (Bv : Nat → Nat → EReal)
    (hw : ∀ k n, k < N → n < N' → w k n = if k / A = n / B then V (k / A) (k % A) (n % B) else 0)
    (hb : ∀ n, n < N' → bias n = Bv (n / B) (n % B))
    {q c : Nat} (hN : A * q + A ≤ N) (hN' : B * q + B ≤ N') (hc : c < B)
    {h' : Nat → EReal} (hh : ∀ i, i < A → h (A * q + i) = h' i) :
    dense N h w bias (B * q + c) = dense A h' (V q) (Bv q) c := by
  have hn : B * q + c < N' := by omega
  refine (dense_window hN fun k hk hne => ?_).trans (dense_congr (fun i hi => ?_) ?_)
  · have hkq : k / A ≠ q := fun hkq => hne (by
      have e := Nat.div_add_mod k A; rw [hkq] at e; have := Nat.mod_lt k hA; omega)
    rw [hw k _ hk hn, blk_div hc, if_neg hkq]
  · rw [hh i hi, hw _ _ (by omega) hn, blk_div hi, blk_mod hi, blk_div hc, blk_mod hc, if_pos rfl]
  · rw [hb _ hn, blk_div hc, blk_mod hc]

theorem coe_sum_range (n : Nat) (f : Nat → ℝ) :
    ((∑ i ∈ Finset.range n, f i : ℝ) : EReal) = ∑ i ∈ Finset.range n, (f i : EReal) := by
  induction n with
  | zero => simp
  | succ n ih => rw [Finset.sum_range_succ, Finset.sum_range_succ, EReal.coe_add, ih]

/-- The column gather folded into a weight: real factors distribute over the inner sum, and [c t = f] picks f = c t. -/
theorem gather_sum (F J : Nat) (x : Nat → EReal) (W : Nat → EReal) (c : Nat → Nat)
    (hc : ∀ t, t < J → c t < F)
    (hx : ∀ f, ∃ r : ℝ, x f = (r : EReal)) (hW : ∀ t, ∃ r : ℝ, W t = (r : EReal)) :
    ∑ f ∈ Finset.range F, x f * (∑ t ∈ Finset.range J, if c t = f then W t else 0)
      = ∑ t ∈ Finset.range J, x (c t) * W t := by
  choose xr hxr using hx
  choose Wr hWr using hW
  have hi : ∀ f t, (if c t = f then (Wr t : EReal) else 0) = ((if c t = f then Wr t else 0 : ℝ) : EReal) :=
    fun f t => by split_ifs <;> rfl
  simp only [hxr, hWr, hi, ← coe_sum_range, ← EReal.coe_mul]
  congr 1
  simp only [Finset.mul_sum, mul_ite, mul_zero]
  rw [Finset.sum_comm]
  exact Finset.sum_congr rfl fun t ht => by
    rw [Finset.sum_ite_eq, if_pos (Finset.mem_range.mpr (hc t (Finset.mem_range.mp ht)))]

/-- A dense layer of a real row through a weight that carries a column gather is the dense layer of the gathered row. -/
theorem dense_gather {F J : Nat} {x : Nat → EReal} {W : Nat → Nat → EReal} (B : Nat → EReal) {c : Nat → Nat} (o : Nat)
    (hc : ∀ t, t < J → c t < F) (hx : ∀ f, ∃ r : ℝ, x f = (r : EReal)) (hW : ∀ t, ∃ r : ℝ, W t o = (r : EReal)) :
    dense F x (fun i n => ∑ t ∈ Finset.range J, if c t = i then W t n else 0) B o = dense J (fun t => x (c t)) W B o :=
  congrArg (· + B o) (gather_sum F J x (fun t => W t o) c hc hx hW)

end Cert.RanSpec

end
-- ==== Proof.AlgDec.lean ====
import proofs.«417456_j29695403885050_3_alg».proof.Proof.AlgEnc

noncomputable section

namespace Cert.RanSpec

open Idealize.ShloMosaic Idealize.ShloMosaic.ValueIdx

/-- Blocks whose columns are an upper weight's b followed by a lower weight's: each half reads the block's rows through its own weight. -/
theorem dense_blockside {N N' A B b : Nat} (hA : 0 < A) {h : Nat → EReal} {w : Nat → Nat → EReal} {bias : Nat → EReal}
    (WU WL : Nat → Nat → Nat → EReal) (BU BL : Nat → Nat → EReal)
    (hw : ∀ k n, k < N → n < N' → w k n = if k / A = n / B then (if n % B < b then WU (k / A) (k % A) (n % B) else WL (k / A) (k % A) (n % B - b)) else 0)
    (hb : ∀ n, n < N' → bias n = if n % B < b then BU (n / B) (n % B) else BL (n / B) (n % B - b))
    {q c : Nat} (hN : A * q + A ≤ N) (hN' : B * q + B ≤ N') (hB : b + b ≤ B) (hc : c < b)
    {h' : Nat → EReal} (hh : ∀ i, i < A → h (A * q + i) = h' i) :
    dense N h w bias (B * q + c) = dense A h' (WU q) (BU q) c
    ∧ dense N h w bias (B * q + (b + c)) = dense A h' (WL q) (BL q) c := by
  have e : ¬ b + c < b := by omega
  have D := fun c hc => dense_blockdiag hA (fun q i n => if n < b then WU q i n else WL q i (n - b))
    (fun q n => if n < b then BU q n else BL q (n - b)) hw hb (q := q) (c := c) hN hN' hc hh
  refine ⟨(D c (by omega)).trans (dense_congr (fun i _ => ?_) ?_), (D (b + c) (by omega)).trans (dense_congr (fun i _ => ?_) ?_)⟩
  · simp only [if_pos hc]
  · simp only [if_pos hc]
  · simp only [if_neg e, Nat.add_sub_cancel_left]
  · simp only [if_neg e, Nat.add_sub_cancel_left]

/-- Blocks that pair an upper part (rows < a, columns < b) with a lower part (the rest): each half of the columns reads its own half of the rows. -/
theorem dense_blockpair {N N' A B a b : Nat} (hA : A = a + a) (hB : B = b + b) (ha : 0 < a)
    {h : Nat → EReal} {w : Nat → Nat → EReal} {bias : Nat → EReal}
    (WU WL : Nat → Nat → Nat → EReal) (BU BL : Nat → Nat → EReal)
    (hw : ∀ k n, k < N → n < N' → w k n = if k / A = n / B then (if k % A < a then (if n % B < b then WU (k / A) (k % A) (n % B) else 0) else (if n % B < b then 0 else WL (k / A) (k % A - a) (n % B - b))) else 0)
    (hb : ∀ n, n < N' → bias n = if n % B < b then BU (n / B) (n % B) else BL (n / B) (n % B - b))
    {q c : Nat} (hN : A * q + A ≤ N) (hN' : B * q + B ≤ N') (hc : c < b)
    {u l : Nat → EReal} (hu : ∀ i, i < a → h (A * q + i) = u i) (hl : ∀ i, i < a → h (A * q + (a + i)) = l i) :
    dense N h w bias (B * q + c) = dense a u (WU q) (BU q) c
    ∧ dense N h w bias (B * q + (b + c)) = dense a l (WL q) (BL q) c := by
  subst hA hB
  have e : ¬ b + c < b := by omega
  have D := fun c hc => dense_blockdiag (by omega) (fun q i n => if i < a then (if n < b then WU q i n else 0) else (if n < b then 0 else WL q (i - a) (n - b)))
    (fun q n => if n < b then BU q n else BL q (n - b)) hw hb (h := h) (q := q) (c := c) hN hN' hc fun _ _ => rfl
  constructor
  · refine ((D c (by omega)).trans (dense_window (s := 0) (d := a) (by omega) fun k _ hne => ?_)).trans (dense_congr (fun i hi => ?_) ?_)
    · simp only [if_neg (show ¬ k < a by omega), if_pos hc]
    · simp only [Nat.zero_add, if_pos hi, if_pos hc, hu i hi]
    · simp only [if_pos hc]
  · refine ((D (b + c) (by omega)).trans (dense_window (s := a) (d := a) (by omega) fun k _ hne => ?_)).trans (dense_congr (fun i hi => ?_) ?_)
    · simp only [if_pos (show k < a by omega), if_neg e]
    · simp only [if_neg (show ¬ a + i < a by omega), if_neg e, Nat.add_sub_cancel_left, hl i hi]
    · simp only [if_neg e, Nat.add_sub_cancel_left]

end Cert.RanSpec

end
-- ==== Proof.AlgGroup.lean ====
import proofs.«417456_j29695403885050_3_alg».proof.Proof.AlgDec

noncomputable section

namespace Cert.RanSpec

open Idealize.ShloMosaic Idealize.ShloMosaic.ValueIdx

/-- One group's six block-diagonal layers on a batch row give, at columns 128 j + f and 128 j + 64 + f, estimator 4 g + j's two decoders. -/
theorem group_eq
    (X : (⟨2, ![8192, 64]⟩ : Shape).Idx → EReal) (col : Nat → Nat → Nat)
    (W0 : (⟨3, ![100, 16, 8]⟩ : Shape).Idx → EReal) (B0 : (⟨2, ![100, 8]⟩ : Shape).Idx → EReal)
    (W1 : (⟨3, ![100, 8, 4]⟩ : Shape).Idx → EReal) (B1 : (⟨2, ![100, 4]⟩ : Shape).Idx → EReal)
    (Wl : (⟨3, ![100, 4, 8]⟩ : Shape).Idx → EReal) (Bl : (⟨2, ![100, 8]⟩ : Shape).Idx → EReal)
    (Hw0 Lw0 : (⟨3, ![100, 8, 16]⟩ : Shape).Idx → EReal) (Hb0 Lb0 : (⟨2, ![100, 16]⟩ : Shape).Idx → EReal)
    (Hw1 Lw1 : (⟨3, ![100, 16, 32]⟩ : Shape).Idx → EReal) (Hb1 Lb1 : (⟨2, ![100, 32]⟩ : Shape).Idx → EReal)
    (Hwr Lwr : (⟨3, ![100, 32, 64]⟩ : Shape).Idx → EReal) (Hbr Lbr : (⟨2, ![100, 64]⟩ : Shape).Idx → EReal)
    (hcol : ∀ e j, e < 100 → j < 16 → col e j < 64)
    (hX : ∀ b f, ∃ r : ℝ, at2 X b f = (r : EReal)) (hW0 : ∀ e j o, ∃ r : ℝ, at3 W0 e j o = (r : EReal))
    (g b : Nat) (hg : g < 25)
    (x : Nat → EReal) (w1 : Nat → Nat → EReal) (b1 : Nat → EReal) (w2 : Nat → Nat → EReal) (b2 : Nat → EReal)
    (w3 : Nat → Nat → EReal) (b3 : Nat → EReal) (w4 : Nat → Nat → EReal) (b4 : Nat → EReal)
    (w5 : Nat → Nat → EReal) (b5 : Nat → EReal) (w6 : Nat → Nat → EReal) (b6 : Nat → EReal)
    (hx : ∀ f, f < 64 → x f = at2 X b f)
    (hw1 : ∀ k n, k < 256 → n < 32 → w1 k n = if k / 64 = n / 8 then ∑ j ∈ Finset.range 16, (if col (4 * g + k / 64) j = k % 64 then at3 W0 (4 * g + k / 64) j (n % 8) else 0) else 0)
    (hb1 : ∀ n, n < 32 → b1 n = at2 B0 (4 * g + n / 8) (n % 8))
    (hw2 : ∀ k n, k < 32 → n < 16 → w2 k n = if k / 8 = n / 4 then at3 W1 (4 * g + k / 8) (k % 8) (n % 4) else 0)
    (hb2 : ∀ n, n < 16 → b2 n = at2 B1 (4 * g + n / 4) (n % 4))
    (hw3 : ∀ k n, k < 16 → n < 32 → w3 k n = if k / 4 = n / 8 then at3 Wl (4 * g + k / 4) (k % 4) (n % 8) else 0)
    (hb3 : ∀ n, n < 32 → b3 n = at2 Bl (4 * g + n / 8) (n % 8))
    (hw4 : ∀ k n, k < 32 → n < 128 → w4 k n = if k / 8 = n / 32 then (if n % 32 < 16 then at3 Hw0 (4 * g + k / 8) (k % 8) (n % 32) else at3 Lw0 (4 * g + k / 8) (k % 8) (n % 32 - 16)) else 0)
    (hb4 : ∀ n, n < 128 → b4 n = if n % 32 < 16 then at2 Hb0 (4 * g + n / 32) (n % 32) else at2 Lb0 (4 * g + n / 32) (n % 32 - 16))
    (hw5 : ∀ k n, k < 128 → n < 256 → w5 k n = if k / 32 = n / 64 then (if k % 32 < 16 then (if n % 64 < 32 then at3 Hw1 (4 * g + k / 32) (k % 32) (n % 64) else 0) else (if n % 64 < 32 then 0 else at3 Lw1 (4 * g + k / 32) (k % 32 - 16) (n % 64 - 32))) else 0)
    (hb5 : ∀ n, n < 256 → b5 n = if n % 64 < 32 then at2 Hb1 (4 * g + n / 64) (n % 64) else at2 Lb1 (4 * g + n / 64) (n % 64 - 32))
    (hw6 : ∀ k n, k < 256 → n < 512 → w6 k n = if k / 64 = n / 128 then (if k % 64 < 32 then (if n % 128 < 64 then at3 Hwr (4 * g + k / 64) (k % 64) (n % 128) else 0) else (if n % 128 < 64 then 0 else at3 Lwr (4 * g + k / 64) (k % 64 - 32) (n % 128 - 64))) else 0)
    (hb6 : ∀ n, n < 512 → b6 n = if n % 128 < 64 then at2 Hbr (4 * g + n / 128) (n % 128) else at2 Lbr (4 * g + n / 128) (n % 128 - 64))
    (j f : Nat) (hj : j < 4) (hf : f < 64) :
    g6 x w1 b1 w2 b2 w3 b3 w4 b4 w5 b5 w6 b6 (128 * j + f)
        = decOut X col W0 B0 W1 B1 Wl Bl Hw0 Hb0 Hw1 Hb1 Hwr Hbr (4 * g + j) b f
    ∧ g6 x w1 b1 w2 b2 w3 b3 w4 b4 w5 b5 w6 b6 (128 * j + 64 + f)
        = decOut X col W0 B0 W1 B1 Wl Bl Lw0 Lb0 Lw1 Lb1 Lwr Lbr (4 * g + j) b f := by
  have he : 4 * g + j < 100 := by omega
  have h1 : ∀ o, o < 8 → g1 x w1 b1 (8 * j + o) = enc1 X col W0 B0 (4 * g + j) b o := fun o ho =>
    congrArg relu ((dense_blockdiag (by omega)
      (fun q i n => ∑ t ∈ Finset.range 16, if col (4 * g + q) t = i then at3 W0 (4 * g + q) t n else 0)
      (fun q n => at2 B0 (4 * g + q) n) hw1 hb1 (by omega) (by omega) ho
      fun i hi => (congrArg x (blk_mod hi)).trans (hx i hi)).trans
      (dense_gather _ o (fun t ht => hcol _ t he ht) (hX b) fun t => hW0 _ t o))
  have h2 : ∀ o, o < 4 → g2 x w1 b1 w2 b2 (4 * j + o) = enc2 X col W0 B0 W1 B1 (4 * g + j) b o := fun o ho =>
    congrArg relu (dense_blockdiag (by omega) (fun q i n => at3 W1 (4 * g + q) i n) (fun q n => at2 B1 (4 * g + q) n)
      hw2 hb2 (by omega) (by omega) ho h1)
  have h3 : ∀ o, o < 8 → g3 x w1 b1 w2 b2 w3 b3 (8 * j + o) = lat X col W0 B0 W1 B1 Wl Bl (4 * g + j) b o := fun o ho =>
    congrArg relu (dense_blockdiag (by omega) (fun q i n => at3 Wl (4 * g + q) i n) (fun q n => at2 Bl (4 * g + q) n)
      hw3 hb3 (by omega) (by omega) ho h2)
  have h4 : ∀ c, c < 16 →
      g4 x w1 b1 w2 b2 w3 b3 w4 b4 (32 * j + c) = dec1 X col W0 B0 W1 B1 Wl Bl Hw0 Hb0 (4 * g + j) b c
      ∧ g4 x w1 b1 w2 b2 w3 b3 w4 b4 (32 * j + (16 + c)) = dec1 X col W0 B0 W1 B1 Wl Bl Lw0 Lb0 (4 * g + j) b c := fun c hc =>
    (dense_blockside (by omega) (fun q i n => at3 Hw0 (4 * g + q) i n) (fun q i n => at3 Lw0 (4 * g + q) i n)
      (fun q n => at2 Hb0 (4 * g + q) n) (fun q n => at2 Lb0 (4 * g + q) n) hw4 hb4 (by omega) (by omega) (by omega) hc h3).imp
      (congrArg relu) (congrArg relu)
  have h5 : ∀ c, c < 32 →
      g5 x w1 b1 w2 b2 w3 b3 w4 b4 w5 b5 (64 * j + c) = dec2 X col W0 B0 W1 B1 Wl Bl Hw0 Hb0 Hw1 Hb1 (4 * g + j) b c
      ∧ g5 x w1 b1 w2 b2 w3 b3 w4 b4 w5 b5 (64 * j + (32 + c)) = dec2 X col W0 B0 W1 B1 Wl Bl Lw0 Lb0 Lw1 Lb1 (4 * g + j) b c := fun c hc =>
    (dense_blockpair (a := 16) (b := 32) rfl rfl (by omega) (fun q i n => at3 Hw1 (4 * g + q) i n) (fun q i n => at3 Lw1 (4 * g + q) i n)
      (fun q n => at2 Hb1 (4 * g + q) n) (fun q n => at2 Lb1 (4 * g + q) n) hw5 hb5 (by omega) (by omega) hc
      (fun i hi => (h4 i hi).1) fun i hi => (h4 i hi).2).imp (congrArg relu) (congrArg relu)
  rw [Nat.add_assoc]
  exact dense_blockpair (a := 32) (b := 64) rfl rfl (by omega) (fun q i n => at3 Hwr (4 * g + q) i n) (fun q i n => at3 Lwr (4 * g + q) i n)
    (fun q n => at2 Hbr (4 * g + q) n) (fun q n => at2 Lbr (4 * g + q) n) hw6 hb6 (by omega) (by omega) hf
    (fun i hi => (h5 i hi).1) fun i hi => (h5 i hi).2

end Cert.RanSpec

end
-- ==== Proof.PointVal.lean ====
import proofs.«417456_j29695403885050_3_alg».proof.Proof.BlockReads
import proofs.«417456_j29695403885050_3_alg».proof.Proof.Payload
import proofs.«417456_j29695403885050_3_alg».proof.Proof.HostLine
import proofs.«417456_j29695403885050_3_alg».proof.Proof.HostW1
import proofs.«417456_j29695403885050_3_alg».proof.Proof.HostW35
import proofs.«417456_j29695403885050_3_alg».proof.Proof.HostW7
import proofs.«417456_j29695403885050_3_alg».proof.Proof.HostW9
import proofs.«417456_j29695403885050_3_alg».proof.Proof.HostW11
import proofs.«417456_j29695403885050_3_alg».proof.Proof.HostBias
import proofs.«417456_j29695403885050_3_alg».proof.Proof.AlgGroup

noncomputable section

namespace Cert.KernelIdeal.PointVal

open Cert.KernelIdeal Cert.KernelIdeal.Gen Cert.KernelIdeal.Hand Cert.KernelIdeal.Blocks Cert.KernelIdeal.HostVal
open Cert.KernelIdeal.Payload Cert.RanSpec
open Idealize.ShloMosaic Idealize.ShloMosaic.ValueIdx Idealize.ShloMosaic.TcCoe Idealize.SL.Sem

variable (m : (ℓ : Loc nD τ sig) → Buf (Elt Ideal) ℓ) (c : Dev nD)

abbrev aX : S8192x64.Idx → EReal := m ((c : Thread nD τ).loc main_arg0)
abbrev aRS : S100x16.Idx → BitVec 32 := m ((c : Thread nD τ).loc main_arg1)
abbrev aW0 : S100x16x8.Idx → EReal := m ((c : Thread nD τ).loc main_arg2)
abbrev aB0 : S100x8.Idx → EReal := m ((c : Thread nD τ).loc main_arg3)
abbrev aW1 : S100x8x4.Idx → EReal := m ((c : Thread nD τ).loc main_arg4)
abbrev aB1 : S100x4.Idx → EReal := m ((c : Thread nD τ).loc main_arg5)
abbrev aWl : S100x4x8.Idx → EReal := m ((c : Thread nD τ).loc main_arg6)
abbrev aBl : S100x8.Idx → EReal := m ((c : Thread nD τ).loc main_arg7)
abbrev aHw0 : S100x8x16.Idx → EReal := m ((c : Thread nD τ).loc main_arg8)
abbrev aHb0 : S100x16.Idx → EReal := m ((c : Thread nD τ).loc main_arg9)
abbrev aHw1 : S100x16x32.Idx → EReal := m ((c : Thread nD τ).loc main_arg10)
abbrev aHb1 : S100x32.Idx → EReal := m ((c : Thread nD τ).loc main_arg11)
abbrev aHwr : S100x32x64.Idx → EReal := m ((c : Thread nD τ).loc main_arg12)
abbrev aHbr : S100x64.Idx → EReal := m ((c : Thread nD τ).loc main_arg13)
abbrev aLw0 : S100x8x16.Idx → EReal := m ((c : Thread nD τ).loc main_arg14)
abbrev aLb0 : S100x16.Idx → EReal := m ((c : Thread nD τ).loc main_arg15)
abbrev aLw1 : S100x16x32.Idx → EReal := m ((c : Thread nD τ).loc main_arg16)
abbrev aLb1 : S100x32.Idx → EReal := m ((c : Thread nD τ).loc main_arg17)
abbrev aLwr : S100x32x64.Idx → EReal := m ((c : Thread nD τ).loc main_arg18)
abbrev aLbr : S100x64.Idx → EReal := m ((c : Thread nD τ).loc main_arg19)

abbrev specHi : S100x8192x64.Idx → EReal := Cert.RanSpec.out (aX m c) (colOf (aRS m c)) (aW0 m c) (aB0 m c) (aW1 m c) (aB1 m c) (aWl m c) (aBl m c) (aHw0 m c) (aHb0 m c) (aHw1 m c) (aHb1 m c) (aHwr m c) (aHbr m c)

abbrev specLo : S100x8192x64.Idx → EReal := Cert.RanSpec.out (aX m c) (colOf (aRS m c)) (aW0 m c) (aB0 m c) (aW1 m c) (aB1 m c) (aWl m c) (aBl m c) (aLw0 m c) (aLb0 m c) (aLw1 m c) (aLb1 m c) (aLwr m c) (aLbr m c)

-- The operations before the kernel call leave x as given.
theorem kept0 : (V m c main_arg0 : S8192x64.Idx → EReal) = aX m c :=
  Cert.KernelIdeal.HostLine.hostWrites.kept (fun b => m (c, b)) main_arg0 (by decide)

theorem col_lt (hcol : ∀ i : S100x16.Idx, (aRS m c i).toNat < 64) : ∀ e j, e < 100 → j < 16 → colOf (aRS m c) e j < 64 := by
  intro e j he hj
  unfold colOf
  rw [dif_pos ⟨he, hj⟩]
  exact hcol _

theorem at2_real {n0 n1 : Nat} (A : (⟨2, ![n0, n1]⟩ : Shape).Idx → EReal) (h : ∀ i, ∃ r : ℝ, A i = (r : EReal)) :
    ∀ a b, ∃ r : ℝ, at2 A a b = (r : EReal) := by
  intro a b
  unfold at2
  split
  · exact h _
  · exact ⟨0, EReal.coe_zero.symm⟩

theorem at3_real {n0 n1 n2 : Nat} (A : (⟨3, ![n0, n1, n2]⟩ : Shape).Idx → EReal) (h : ∀ i, ∃ r : ℝ, A i = (r : EReal)) :
    ∀ a b d, ∃ r : ℝ, at3 A a b d = (r : EReal) := by
  intro a b d
  unfold at3
  split
  · exact h _
  · exact ⟨0, EReal.coe_zero.symm⟩

-- An array given by a function of its coordinates, read inside its extents.
theorem at3_of {n0 n1 n2 : Nat} (D : Nat → Nat → Nat → EReal) (a b d : Nat) (ha : a < n0) (hb : b < n1) (hd : d < n2) :
    at3 (fun i : (⟨3, ![n0, n1, n2]⟩ : Shape).Idx => D (i 0).val (i 1).val (i 2).val) a b d = D a b d :=
  (at3_ix3 _ ⟨a, ha⟩ ⟨b, hb⟩ ⟨d, hd⟩).trans rfl

-- The group's latent block at point t, and a decoder stage p on it and the point's last six blocks.
abbrev mid (t : Fin cfg0.N) : FVec Ideal S2048x32 .f32 :=
  k0_pay3 (blkOf m c 0 t) (blkOf m c 1 t) (blkOf m c 2 t) (blkOf m c 3 t) (blkOf m c 4 t) (blkOf m c 5 t) (blkOf m c 6 t)

abbrev dec {α : Type} (p : FVec Ideal S2048x32 .f32 → Vec Ideal S1x32x128 .bf16 → Vec Ideal S1x1x128 .f32 → Vec Ideal S1x128x256 .bf16
    → Vec Ideal S1x1x256 .f32 → Vec Ideal S1x256x512 .bf16 → Vec Ideal S1x1x512 .f32 → α) (t : Fin cfg0.N) : α :=
  p (mid m c t) (blkOf m c 7 t) (blkOf m c 8 t) (blkOf m c 9 t) (blkOf m c 10 t) (blkOf m c 11 t) (blkOf m c 12 t)

-- What point t writes to the upper and to the lower result.
abbrev payHi (t : Fin cfg0.N) : S4x2048x64.Idx → EReal :=
  k0_pay1 (dec m c k0_pay5 t) (dec m c k0_pay6 t) (dec m c k0_pay7 t) (dec m c k0_pay12 t)

abbrev payLo (t : Fin cfg0.N) : S4x2048x64.Idx → EReal :=
  k0_pay2 (dec m c k0_pay8 t) (dec m c k0_pay9 t) (dec m c k0_pay10 t) (dec m c k0_pay11 t)

-- Entry (j, r, f) of either is the specification's at estimator 4 (t % 25) + j, batch row 2048 (t / 25) + r: the group identity on the point's blocks.
theorem point (hcol : ∀ i : S100x16.Idx, (aRS m c i).toNat < 64)
    (hX : ∀ i, ∃ r : ℝ, aX m c i = (r : EReal)) (hW0 : ∀ i, ∃ r : ℝ, aW0 m c i = (r : EReal))
    (t : Fin cfg0.N) (j r f : Nat) (hj : j < 4) (hr : r < 2048) (hf : f < 64) :
    at3 (payHi m c t) j r f = at3 (specHi m c) (4 * (t.val % 25) + j) (2048 * (t.val / 25) + r) f
    ∧ at3 (payLo m c t) j r f = at3 (specLo m c) (4 * (t.val % 25) + j) (2048 * (t.val / 25) + r) f := by
  have ht : t.val % 25 < 25 := Nat.mod_lt _ (by decide)
  have he : 4 * (t.val % 25) + j < 100 := by omega
  have hb : 2048 * (t.val / 25) + r < 8192 := by have := Nat.lt_of_lt_of_eq t.isLt N_0; omega
  have h := group_eq (aX m c) (colOf (aRS m c)) (aW0 m c) (aB0 m c) (aW1 m c) (aB1 m c) (aWl m c) (aBl m c) (aHw0 m c) (aLw0 m c) (aHb0 m c) (aLb0 m c) (aHw1 m c) (aLw1 m c) (aHb1 m c) (aLb1 m c) (aHwr m c) (aLwr m c) (aHbr m c) (aLbr m c)
      (col_lt m c hcol) (at2_real _ hX) (at3_real _ hW0) (t.val % 25) (2048 * (t.val / 25) + r) ht _ _ _ _ _ _ _ _ _ _ _ _ _
      (fun f hf => (rd0 m c t r f hr hf).trans (congrArg (fun A : S8192x64.Idx → EReal => at2 A (2048 * (t.val / 25) + r) f) (kept0 m c)))
      (fun k n hk hn => (rd1 m c t k n hk hn).trans (w1_entry m c hcol (t.val % 25) k n ht hk hn))
      (fun n hn => (rd2 m c t n hn).trans (b1_entry m c (t.val % 25) n ht hn))
      (fun k n hk hn => (rd3 m c t k n hk hn).trans (w3_entry m c (t.val % 25) k n ht hk hn))
      (fun n hn => (rd4 m c t n hn).trans (b2_entry m c (t.val % 25) n ht hn))
      (fun k n hk hn => (rd5 m c t k n hk hn).trans (w5_entry m c (t.val % 25) k n ht hk hn))
      (fun n hn => (rd6 m c t n hn).trans (b3_entry m c (t.val % 25) n ht hn))
      (fun k n hk hn => (rd7 m c t k n hk hn).trans (w7_entry m c (t.val % 25) k n ht hk hn))
      (fun n hn => (rd8 m c t n hn).trans (b4_entry m c (t.val % 25) n ht hn))
      (fun k n hk hn => (rd9 m c t k n hk hn).trans (w9_entry m c (t.val % 25) k n ht hk hn))
      (fun n hn => (rd10 m c t n hn).trans (b5_entry m c (t.val % 25) n ht hn))
      (fun k n hk hn => (rd11 m c t k n hk hn).trans (w11_entry m c (t.val % 25) k n ht hk hn))
      (fun n hn => (rd12 m c t n hn).trans (b6_entry m c (t.val % 25) n ht hn))
      j f hj hf
  exact ⟨(pay_hi _ _ _ _ _ _ _ _ _ _ _ _ _ j r f hj hr hf).trans (h.1.trans (at3_of _ _ _ _ he hb hf).symm),
    (pay_lo _ _ _ _ _ _ _ _ _ _ _ _ _ j r f hj hr hf).trans (h.2.trans (at3_of _ _ _ _ he hb hf).symm)⟩

end Cert.KernelIdeal.PointVal

end
-- ==== Proof.KVal.lean ====
import proofs.«417456_j29695403885050_3_alg».proof.Proof.FrameKI
import proofs.«417456_j29695403885050_3_alg».proof.Proof.PointVal
import Idealize.ShloMosaic.Lib.Pipeline.Value

noncomputable section

namespace Cert.KernelIdeal.KVal

open Cert.KernelIdeal Cert.KernelIdeal.Gen Cert.KernelIdeal.Hand Cert.KernelIdeal.Blocks Cert.KernelIdeal.PointVal
open Cert.RanSpec
open Idealize.ShloMosaic Idealize.ShloMosaic.ValueIdx Idealize.ShloMosaic.TcCoe Idealize.SL.Sem
open Idealize.ShloMosaic.Pipeline (Dat)

-- A [4, 2048, 64] block P that agrees entry by entry with the array G at block index (g, q, 0) is G read through the block.
theorem block_eq (P : S4x2048x64.Idx → EReal) (G : S100x8192x64.Idx → EReal) (emb : S4x2048x64.Idx → S100x8192x64.Idx) {g q : Nat}
    (he : ∀ y, ((emb y) 0).val = 4 * g + (y 0).val ∧ ((emb y) 1).val = 2048 * q + (y 1).val ∧ ((emb y) 2).val = (y 2).val)
    (hP : ∀ j r f, j < 4 → r < 2048 → f < 64 → at3 P j r f = at3 G (4 * g + j) (2048 * q + r) f) (y : S4x2048x64.Idx) :
    P y = G (emb y) := by
  obtain ⟨e0, e1, e2⟩ := he y
  rw [at3_apply P y, hP _ _ _ (y 0).isLt (y 1).isLt (y 2).isLt, ← e0, ← e1, ← e2]
  exact (at3_apply G (emb y)).symm

variable (m : (ℓ : Loc nD τ sig) → Buf (Elt Ideal) ℓ) (c : Dev nD)
  (hcol : ∀ i : S100x16.Idx, (aRS m c i).toNat < 64)
  (hX : ∀ i, ∃ r : ℝ, aX m c i = (r : EReal)) (hW0 : ∀ i, ∃ r : ℝ, aW0 m c i = (r : EReal))

include hcol hX hW0

-- Each point writes back its block of the specification's array, and the 100 blocks tile the array.
theorem final_hi : ((dats m 0 c).arrAt 13 cfg0.N : S100x8192x64.Idx → EReal) = specHi m c :=
  (dats m 0 c).arrAt_eq_of_cover 13 (specHi m c) (fun t _ => funext fun y => by
    show (cfg0.win 13).cut (grid0.coords t) ((dats m 0 c).after 13 t) y = _
    rw [after0_13, out0_13_eq]
    exact block_eq (payHi m c t) (specHi m c) _ (emb13 t) (fun j r f hj hr hf => (point m c hcol hX hW0 t j r f hj hr hf).1) y)
    (cover13 c)

theorem final_lo : ((dats m 0 c).arrAt 14 cfg0.N : S100x8192x64.Idx → EReal) = specLo m c :=
  (dats m 0 c).arrAt_eq_of_cover 14 (specLo m c) (fun t _ => funext fun y => by
    show (cfg0.win 14).cut (grid0.coords t) ((dats m 0 c).after 14 t) y = _
    rw [after0_14, out0_14_eq]
    exact block_eq (payLo m c t) (specLo m c) _ (emb14 t) (fun j r f hj hr hf => (point m c hcol hX hW0 t j r f hj hr hf).2) y)
    (cover14 c)

end Cert.KernelIdeal.KVal

end
-- ==== Proof.RefValue.lean ====
import proofs.«417456_j29695403885050_3_alg».proof.Proof.Gen.ReferenceIdeal.Read
import proofs.«417456_j29695403885050_3_alg».proof.Proof.Spec
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo Cert.RanSpec

-- The gather read at (b, e, j): row b of the operand at the column the index word (e, j) names, read signed and clamped into [0, 63].
theorem gather_apply {α : Type} (x : S8192x64.Idx → α) (idx : IVec S100x16x1 32) (b : Fin 8192) (e : Fin 100) (j : Fin 16)
    (c : Fin 64) (hc : min (idx (ix3 e j ⟨0, Nat.one_pos⟩)).toInt.toNat 63 = c.val) :
    Host.gather gather_S8192x64_S100x16x1_S8192x100x16_0_1_n_n_1_2_81921 x idx (ix3 b e j) = x (ix2 b c) := by
  unfold Host.gather
  congr 1
  funext a
  refine Fin.ext ?_
  match a with
  | ⟨0, _⟩ =>
    show GatherDims.start _ (ix3 b e j) idx 0 + GatherDims.batchCoord _ (ix3 b e j) 0 + GatherDims.offCoord _ (ix3 b e j) 0 = b.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show GatherDims.start _ (ix3 b e j) idx 1 + GatherDims.batchCoord _ (ix3 b e j) 1 + GatherDims.offCoord _ (ix3 b e j) 1 = c.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x64_S100x16x1_S8192x100x16_0_1_n_n_1_2_81921.startIndexMap from List.mem_singleton.mpr rfl)]
    have hsi : gather_S8192x64_S100x16x1_S8192x100x16_0_1_n_n_1_2_81921.siIdx (ix3 b e j)
        ⟨List.idxOf (1 : Fin 2) gather_S8192x64_S100x16x1_S8192x100x16_0_1_n_n_1_2_81921.startIndexMap,
          List.idxOf_lt_length_iff.2 (List.mem_singleton.mpr rfl)⟩ = ix3 e j ⟨0, Nat.one_pos⟩ := by
      funext a'; match a' with | ⟨0, _⟩ => rfl | ⟨1, _⟩ => rfl | ⟨2, _⟩ => rfl
    rw [hsi]
    exact hc

-- A word below 64 is not negative read signed, so the wrap-around of negative indices keeps it.
theorem v4_apply (x1 : IVec S100x16 32) (i : S100x16.Idx) (h : (x1 i).toNat < 64) :
    val_main_v4 (F := Ideal) x1 i = x1 i := by
  rw [val_main_v4_apply, val_main_v1_apply, val_main_v0_apply, val_main_c_apply]
  exact if_neg fun hc => Nat.not_lt_zero _ ((Predicate.slt_iff_toNat (by omega) (by decide)).mp hc)

section layer

variable {din dout : Nat} {H : (⟨3, ![100, 8192, din]⟩ : Shape).Idx → EReal}
  {W : (⟨3, ![100, din, dout]⟩ : Shape).Idx → EReal} {B : (⟨2, ![100, dout]⟩ : Shape).Idx → EReal}
  (h : Nat → Nat → Nat → EReal) (hH : ∀ (e : Fin 100) (b : Fin 8192) (k : Fin din), H (ix3 e b k) = h e.val b.val k.val)
  (e : Fin 100) (b : Fin 8192) (o : Fin dout)
  {li : Fin din → (⟨3, ![100, 8192, din]⟩ : Shape).Idx} {ri : Fin din → (⟨3, ![100, din, dout]⟩ : Shape).Idx}
  {bi : (⟨2, ![100, dout]⟩ : Shape).Idx}
  (hl : ∀ k, li k = ix3 e b k) (hr : ∀ k, ri k = ix3 e k o) (hb : bi = ix2 e o)

include hH hl hr hb

-- A batched dot over the layer's inputs plus the broadcast bias, read at (e, b, o), is the specification's dense layer.
theorem dense_layer : (∑ k : Fin din, H (li k) * W (ri k)) + B bi
    = dense din (h e.val b.val) (fun k o => at3 W e.val k o) (fun o => at2 B e.val o) o.val := by
  unfold dense
  rw [Finset.sum_range, hb]
  congr 1
  · refine Finset.sum_congr rfl fun k _ => ?_
    rw [hl, hr, hH]
    exact congrArg _ (at3_ix3 W e k o).symm
  · exact (at2_ix2 B e o).symm

theorem relu_layer : max ((∑ k : Fin din, H (li k) * W (ri k)) + B bi) (Ideal.ofBits .f32 0x00000000#32)
    = relu (dense din (h e.val b.val) (fun k o => at3 W e.val k o) (fun o => at2 B e.val o) o.val) := by
  rw [Ideal.ofBits_zero_f32]
  exact congrArg (max · 0) (dense_layer h hH e b o hl hr hb)

end layer

variable (x0 : FVec Ideal S8192x64 .f32) (x1 : IVec S100x16 32) (x2 : FVec Ideal S100x16x8 .f32) (x3 : FVec Ideal S100x8 .f32)
  (x4 : FVec Ideal S100x8x4 .f32) (x5 : FVec Ideal S100x4 .f32) (x6 : FVec Ideal S100x4x8 .f32) (x7 : FVec Ideal S100x8 .f32)
  (x8 : FVec Ideal S100x8x16 .f32) (x9 : FVec Ideal S100x16 .f32) (x10 : FVec Ideal S100x16x32 .f32) (x11 : FVec Ideal S100x32 .f32)
  (x12 : FVec Ideal S100x32x64 .f32) (x13 : FVec Ideal S100x64 .f32) (hcol : ∀ i : S100x16.Idx, (x1 i).toNat < 64)

include hcol

theorem v7_at (e : Fin 100) (b : Fin 8192) (j : Fin 16) :
    val_main_v7 (F := Ideal) x0 x1 (ix3 e b j) = at2 x0 b.val (colOf x1 e.val j.val) := by
  have hc := hcol (ix2 e j)
  have hcolOf : colOf x1 e.val j.val = (x1 (ix2 e j)).toNat := dif_pos ⟨e.isLt, j.isLt⟩
  have hj : idx_main_v7 (ix3 e b j) = ix3 b e j := eq_ix3 _
  have hi : idx_main_v5 (ix3 e j ⟨0, Nat.one_pos⟩) = ix2 e j := eq_ix2 _
  rw [val_main_v7_apply, hj]
  unfold val_main_v6
  rw [gather_apply x0 _ b e j ⟨_, hc⟩ ?_, hcolOf]
  · unfold at2
    rw [dif_pos ⟨b.isLt, hc⟩]
  · rw [val_main_v5_apply, hi, v4_apply x1 _ hc, Predicate.toInt_eq_toNat_of_lt (by omega), Int.toNat_natCast]
    exact Nat.min_eq_left (by omega)

theorem v12_at (e : Fin 100) (b : Fin 8192) (o : Fin 8) :
    val_main_v12 (F := Ideal) x0 x1 x2 x3 (ix3 e b o) = enc1 x0 (colOf x1) x2 x3 e.val b.val o.val := by
  rw [val_main_v12_apply, val_main_v11_apply, val_main_v8_apply, val_main_v10_apply, val_main_v9_apply,
    val_main_call0_v0_apply, val_main_call0_cst_apply]
  exact relu_layer (fun e b j => at2 x0 b (colOf x1 e j)) (v7_at x0 x1 hcol) e b o (fun _ => eq_ix3 _) (fun _ => eq_ix3 _) (eq_ix2 _)

theorem v17_at (e : Fin 100) (b : Fin 8192) (o : Fin 4) :
    val_main_v17 (F := Ideal) x0 x1 x2 x3 x4 x5 (ix3 e b o) = enc2 x0 (colOf x1) x2 x3 x4 x5 e.val b.val o.val := by
  rw [val_main_v17_apply, val_main_v16_apply, val_main_v13_apply, val_main_v15_apply, val_main_v14_apply,
    val_main_call1_v0_apply, val_main_call1_cst_apply]
  exact relu_layer (enc1 x0 (colOf x1) x2 x3) (v12_at x0 x1 x2 x3 hcol) e b o (fun _ => eq_ix3 _) (fun _ => eq_ix3 _) (eq_ix2 _)

theorem v22_at (e : Fin 100) (b : Fin 8192) (o : Fin 8) :
    val_main_v22 (F := Ideal) x0 x1 x2 x3 x4 x5 x6 x7 (ix3 e b o) = lat x0 (colOf x1) x2 x3 x4 x5 x6 x7 e.val b.val o.val := by
  rw [val_main_v22_apply, val_main_v21_apply, val_main_v18_apply, val_main_v20_apply, val_main_v19_apply,
    val_main_call2_v0_apply, val_main_call2_cst_apply]
  exact relu_layer (enc2 x0 (colOf x1) x2 x3 x4 x5) (v17_at x0 x1 x2 x3 x4 x5 hcol) e b o (fun _ => eq_ix3 _) (fun _ => eq_ix3 _) (eq_ix2 _)

theorem v27_at (e : Fin 100) (b : Fin 8192) (o : Fin 16) :
    val_main_v27 (F := Ideal) x0 x1 x2 x3 x4 x5 x6 x7 x8 x9 (ix3 e b o) = dec1 x0 (colOf x1) x2 x3 x4 x5 x6 x7 x8 x9 e.val b.val o.val := by
  rw [val_main_v27_apply, val_main_v26_apply, val_main_v23_apply, val_main_v25_apply, val_main_v24_apply,
    val_main_call3_v0_apply, val_main_call3_cst_apply]
  exact relu_layer (lat x0 (colOf x1) x2 x3 x4 x5 x6 x7) (v22_at x0 x1 x2 x3 x4 x5 x6 x7 hcol) e b o (fun _ => eq_ix3 _) (fun _ => eq_ix3 _) (eq_ix2 _)

theorem v32_at (e : Fin 100) (b : Fin 8192) (o : Fin 32) :
    val_main_v32 (F := Ideal) x0 x1 x2 x3 x4 x5 x6 x7 x8 x9 x10 x11 (ix3 e b o) = dec2 x0 (colOf x1) x2 x3 x4 x5 x6 x7 x8 x9 x10 x11 e.val b.val o.val := by
  rw [val_main_v32_apply, val_main_v31_apply, val_main_v28_apply, val_main_v30_apply, val_main_v29_apply,
    val_main_call4_v0_apply, val_main_call4_cst_apply]
  exact relu_layer (dec1 x0 (colOf x1) x2 x3 x4 x5 x6 x7 x8 x9) (v27_at x0 x1 x2 x3 x4 x5 x6 x7 x8 x9 hcol) e b o (fun _ => eq_ix3 _) (fun _ => eq_ix3 _) (eq_ix2 _)

theorem v36_at (e : Fin 100) (b : Fin 8192) (o : Fin 64) :
    val_main_v36 (F := Ideal) x0 x1 x2 x3 x4 x5 x6 x7 x8 x9 x10 x11 x12 x13 (ix3 e b o) = decOut x0 (colOf x1) x2 x3 x4 x5 x6 x7 x8 x9 x10 x11 x12 x13 e.val b.val o.val := by
  rw [val_main_v36_apply, val_main_v33_apply, val_main_v35_apply, val_main_v34_apply]
  exact dense_layer (dec2 x0 (colOf x1) x2 x3 x4 x5 x6 x7 x8 x9 x10 x11) (v32_at x0 x1 x2 x3 x4 x5 x6 x7 x8 x9 x10 x11 hcol) e b o (fun _ => eq_ix3 _) (fun _ => eq_ix3 _) (eq_ix2 _)

-- Either decoder's result is the specification's network at that decoder's weights: the two differ only in x8 … x13.
theorem ref_out : val_main_v36 (F := Ideal) x0 x1 x2 x3 x4 x5 x6 x7 x8 x9 x10 x11 x12 x13 = out x0 (colOf x1) x2 x3 x4 x5 x6 x7 x8 x9 x10 x11 x12 x13 := by
  funext i
  rw [eq_ix3 i]
  exact v36_at x0 x1 x2 x3 x4 x5 x6 x7 x8 x9 x10 x11 x12 x13 hcol (i 0) (i 1) (i 2)

end Cert.ReferenceIdeal.RefValue
end
-- ==== Proof.PreFacts.lean ====
import proofs.«417456_j29695403885050_3_alg».proof.Pre_finite_inputs
import proofs.«417456_j29695403885050_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.WordArith
import Idealize.ShloMosaic.PureOps.Ideal

noncomputable section

namespace Cert.PreFacts

open Idealize.ShloMosaic Cert.Pre_finite_inputs

instance subsingleton_scalar_idx : Subsingleton S_.Idx := ⟨fun a b => funext fun d => d.elim0⟩

-- max x (-x) < ⊤ rules out both infinities.
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq] at h
  induction x using EReal.rec with
  | bot => simp at h
  | coe r => exact ⟨r, rfl⟩
  | top => simp at h

theorem vand {s : Shape} {x y : IVec s 1} {i : s.Idx} (h : andi x y i = 1#1) : x i = 1#1 ∧ y i = 1#1 :=
  IntOp.andi_eq_one.1 h

variable [Facts] {a0 : FVec Ideal S8192x64 .f32} {a1 : IVec S100x16 32} {a2 : FVec Ideal S100x16x8 .f32} {a3 : FVec Ideal S100x8 .f32} {a4 : FVec Ideal S100x8x4 .f32} {a5 : FVec Ideal S100x4 .f32} {a6 : FVec Ideal S100x4x8 .f32} {a7 : FVec Ideal S100x8 .f32} {a8 : FVec Ideal S100x8x16 .f32} {a9 : FVec Ideal S100x16 .f32} {a10 : FVec Ideal S100x16x32 .f32} {a11 : FVec Ideal S100x32 .f32} {a12 : FVec Ideal S100x32x64 .f32} {a13 : FVec Ideal S100x64 .f32} {a14 : FVec Ideal S100x8x16 .f32} {a15 : FVec Ideal S100x16 .f32} {a16 : FVec Ideal S100x16x32 .f32} {a17 : FVec Ideal S100x32 .f32} {a18 : FVec Ideal S100x32x64 .f32} {a19 : FVec Ideal S100x64 .f32}
  (h : fn (F := Ideal) a0 a1 a2 a3 a4 a5 a6 a7 a8 a9 a10 a11 a12 a13 a14 a15 a16 a17 a18 a19 = fun _ => 1#1)

include h

-- The twenty tests are joined left to right: the first two are the innermost pair, the range test of a1 is the last.
theorem peel :
    (∀ i, FloatOps.cmpf .olt (FloatOps.hostAbsf (a0 i)) (FloatOps.ofBits (F := Ideal) .f32 0x7F800000#32) = 1#1)
    ∧ (∀ i, FloatOps.cmpf .olt (FloatOps.hostAbsf (a2 i)) (FloatOps.ofBits (F := Ideal) .f32 0x7F800000#32) = 1#1)
    ∧ (∀ i, IntOp.cmpi .sge (a1 i) 0#32 = 1#1 ∧ IntOp.cmpi .slt (a1 i) 64#32 = 1#1) := by
  have e := congrFun h ValueIdx.ix0
  dsimp only [fn, fn_part1, fn_part2, fn_part3, fn_part4, fn_part5] at e
  have e20 := (vand e).2
  iterate 18 replace e := (vand e).1
  exact ⟨Host.reduce_andi_all _ _ _ _ _ (vand e).1, Host.reduce_andi_all _ _ _ _ _ (vand e).2,
    fun i => vand (Host.reduce_andi_all _ _ _ _ _ e20 i)⟩

theorem cols_lt : ∀ i : S100x16.Idx, (a1 i).toNat < 64 := fun i =>
  WordArith.toNat_lt_of_zero_sle_of_slt_ofNat _ 64 (by decide)
    ((StableHlo.Predicate.ofBool_eq_one_iff _).1 ((peel h).2.2 i).1) ((StableHlo.Predicate.ofBool_eq_one_iff _).1 ((peel h).2.2 i).2)

theorem x_real : ∀ i, ∃ r : ℝ, a0 i = (r : EReal) := fun i => real_of_abs_lt_inf _ ((peel h).1 i)

theorem w0_real : ∀ i, ∃ r : ℝ, a2 i = (r : EReal) := fun i => real_of_abs_lt_inf _ ((peel h).2.1 i)

end Cert.PreFacts

end
-- ==== Proof.lean ====
import proofs.«417456_j29695403885050_3_alg».proof.Defs
import proofs.«417456_j29695403885050_3_alg».proof.Proof.Gen.Kernel
import proofs.«417456_j29695403885050_3_alg».proof.Proof.Gen.KernelIdeal
import proofs.«417456_j29695403885050_3_alg».proof.Proof.Gen.ReferenceIdeal
import proofs.«417456_j29695403885050_3_alg».proof.Proof.Gen.Pre_finite_inputs
import proofs.«417456_j29695403885050_3_alg».proof.Proof.FrameK
import proofs.«417456_j29695403885050_3_alg».proof.Proof.FrameKI
import proofs.«417456_j29695403885050_3_alg».proof.Proof.KVal
import proofs.«417456_j29695403885050_3_alg».proof.Proof.RefValue
import proofs.«417456_j29695403885050_3_alg».proof.Proof.PreFacts
import Idealize.ShloMosaic.Adequacy
import Idealize.ShloMosaic.Init

noncomputable section

namespace Cert.Proof

open Idealize.ShloMosaic Idealize.ShloMosaic.TcCoe Idealize.SL.Sem

section claims

variable [Cert.Kernel.Facts] [Cert.KernelIdeal.Facts] [Cert.ReferenceIdeal.Facts] [Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

-- Both runs end with the specification's two arrays: the kernel's by its grid points' blocks, the reference's once its arguments are read as the kernel's.
theorem algebraic : Cert.algebraic_KernelIdeal_ReferenceIdeal := by
  intro m ρ m' ρ' hpre hagree
  have hcol := fun c => Cert.PreFacts.cols_lt (hpre c)
  have hx := fun c => Cert.PreFacts.x_real (hpre c)
  have hw := fun c => Cert.PreFacts.w0_real (hpre c)
  refine ⟨fun c => Cert.KernelIdeal.PointVal.specHi m c, fun c => Cert.KernelIdeal.PointVal.specLo m c, ?_, ?_⟩
  · exact (θ_run Cert.KernelIdeal.defs _ _).mono (fun r h c =>
      ⟨(h c).1.trans (Cert.KernelIdeal.KVal.final_hi m c (hcol c) (hx c) (hw c)),
       (h c).2.1.trans (Cert.KernelIdeal.KVal.final_lo m c (hcol c) (hx c) (hw c)), (h c).2.2⟩)
      (Cert.KernelIdeal.Hand.run_named m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18, e19⟩ := hagree c
    refine ⟨(h c).1.trans ((Cert.ReferenceIdeal.RefValue.ref_out _ _ _ _ _ _ _ _ _ _ _ _ _ _ (by rw [e1]; exact hcol c)).trans ?_),
      (h c).2.1.trans ((Cert.ReferenceIdeal.RefValue.ref_out _ _ _ _ _ _ _ _ _ _ _ _ _ _ (by rw [e1]; exact hcol c)).trans ?_), (h c).2.2⟩
    · rw [e0, e1, e2, e3, e4, e5, e6, e7, e8, e9, e10, e11, e12, e13]
    · rw [e0, e1, e2, e3, e4, e5, e6, e7, e14, e15, e16, e17, e18, e19]

end claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
